-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2, 2] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 1024]⟩ (Layout.meshBlock [2, 2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x1024x1024 : Shape := ⟨3, ![1, 1024, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel

variable [Facts]

def fn {F : FTy → Type} [FloatOps F] (main_arg0 : FVec F S1x1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  main_v3
-- ==== Pre_finite_inputs_ReferenceIdeal.lean ====
abbrev S2x1024x1024 : Shape := ⟨3, ![2, 1024, 1024]⟩
abbrev S_ : Shape := ⟨0, ![]⟩

class Facts : Prop where
  bcast_S_S2x1024x1024 : S_.BroadcastsInDim S2x1024x1024 (![] : Fin 0 → Fin S2x1024x1024.rank)
  reducesTo_S2x1024x1024_S_d0_1_2 : S2x1024x1024.ReducesTo [0, 1, 2] S_
  h_S_ : 0 < S_.numel

variable [Facts]

def fn {F : FTy → Type} [FloatOps F] (main_arg0 : FVec F S2x1024x1024 .f32) : IVec S_ 1 :=
  let main_v0 : FVec F S2x1024x1024 .f32 := Host.absf main_arg0
  let main_cst : FVec F S_ .f32 := constant S_ .f32 0x7F800000#32
  let main_v1 : FVec F S2x1024x1024 .f32 := broadcastInDim S2x1024x1024 ![] bcast_S_S2x1024x1024 main_cst
  let main_v2 : IVec S2x1024x1024 1 := cmpf .olt main_v0 main_v1
  let main_c : IVec S_ 1 := constantI S_ 1 1#1
  let main_v3 : IVec S_ 1 := (fun x v => Host.reduce IntOp.andi x v reducesTo_S2x1024x1024_S_d0_1_2 h_S_) main_v2 main_c
  main_v3
-- ==== Kernel.lean ====
abbrev S1x1024x1024 : Shape := ⟨3, ![1, 1024, 1024]⟩
abbrev S1024x512 : Shape := ⟨2, ![1024, 512]⟩
abbrev S5x128x1024 : Shape := ⟨3, ![5, 128, 1024]⟩
abbrev S5x128x512 : Shape := ⟨3, ![5, 128, 512]⟩
abbrev S5 : Shape := ⟨1, ![5]⟩
abbrev S3 : Shape := ⟨1, ![3]⟩
abbrev S_ : Shape := ⟨0, ![]⟩
abbrev S1 : Shape := ⟨1, ![1]⟩
abbrev S1x128x1024 : Shape := ⟨3, ![1, 128, 1024]⟩
abbrev S128x1024 : Shape := ⟨2, ![128, 1024]⟩
abbrev S1x128x512 : Shape := ⟨3, ![1, 128, 512]⟩
abbrev S128x512 : Shape := ⟨2, ![128, 512]⟩

abbrev nBuf : Space → Nat
  | .hbm => 2
  | .vmem => 4
  | .smem => 0
  | _ => 0

abbrev bufTy : (tb : Table) → Fin (tcTables nBuf tb) → BufTy
  | .hbm, ⟨0, _⟩ => ⟨S1x1024x1024, .f32⟩
  | .hbm, ⟨1, _⟩ => ⟨S1024x512, .bf16⟩
  | .local _ .vmem, ⟨0, _⟩ => ⟨S5x128x1024, .f32⟩
  | .local _ .vmem, ⟨1, _⟩ => ⟨S5x128x512, .bf16⟩
  | .local _ .vmem, ⟨2, _⟩ => ⟨S5x128x512, .bf16⟩
  | .local _ .vmem, ⟨3, _⟩ => ⟨S5x128x512, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v18 : BitVec 32 := Scalar.muli v2 c4_i32_11
  let v19 : BitVec 32 := Scalar.addi c0_i32 v18
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_12 : BitVec 32 := 2#32
  let v20 : BitVec 32 := Scalar.muli v9 c2_i32_12
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_13 : BitVec 32 := 1#32
  let v22 : BitVec 32 := Scalar.muli v8 c1_i32_13
  let v23 : BitVec 32 := Scalar.addi v21 v22
  v23.toNat
def k0_dev2 (d0 : Dev nD) : Nat :=
  let c0_i32_16 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v24 : BitVec 32 := Scalar.muli v2 c4_i32_15
  let v25 : BitVec 32 := Scalar.addi c0_i32_16 v24
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_17 : BitVec 32 := 2#32
  let v26 : BitVec 32 := Scalar.muli v5 c2_i32_17
  let v27 : BitVec 32 := Scalar.addi v25 v26
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_18 : BitVec 32 := 1#32
  let v28 : BitVec 32 := Scalar.muli v10 c1_i32_18
  let v29 : BitVec 32 := Scalar.addi v27 v28
  v29.toNat
def k0_off1 (d0 : Dev nD) (c0_i32_19 : BitVec 32) : Fin 3 → Nat :=
  let c0_i32_20 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v11 : BitVec 32 := Scalar.muli v8 c512_i32
  let v30 : BitVec 32 := Scalar.addi v11 c0_i32_19
  let c0_i32_25 : BitVec 32 := 0#32
  ![0, v30.toNat, 0]
def k0_off2 (d0 : Dev nD) : Fin 3 → Nat :=
  let c0_i32_44 : BitVec 32 := 0#32
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let c512_i32_6 : BitVec 32 := 512#32
  let v13 : BitVec 32 := Scalar.muli v12 c512_i32_6
  let c384_i32_43 : BitVec 32 := 384#32
  let v58 : BitVec 32 := Scalar.addi v13 c384_i32_43
  let c0_i32_49 : BitVec 32 := 0#32
  ![0, v58.toNat, 0]
def k0_off3 (d0 : Dev nD) : Fin 3 → Nat :=
  let c0 : Index := 0#32
  let c0_56 : Index := 0#32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c512_i32_9 : BitVec 32 := 512#32
  let v16 : BitVec 32 := Scalar.muli v15 c512_i32_9
  let v71 : Index := Scalar.indexCast v16
  ![0, 0, v71.toNat]
def k0_dev3 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_65 : BitVec 32 := 4#32
  let v78 : BitVec 32 := Scalar.muli v2 c4_i32_65
  let v79 : BitVec 32 := Scalar.addi c0_i32_66 v78
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_67 : BitVec 32 := 2#32
  let v80 : BitVec 32 := Scalar.muli v9 c2_i32_67
  let v81 : BitVec 32 := Scalar.addi v79 v80
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_68 : BitVec 32 := 1#32
  let v82 : BitVec 32 := Scalar.muli v8 c1_i32_68
  let v83 : BitVec 32 := Scalar.addi v81 v82
  v83.toNat
def k0_off4 (d0 : Dev nD) : Fin 3 → Nat :=
  let c1 : Index := 1#32
  let c0_79 : Index := 0#32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c512_i32_9 : BitVec 32 := 512#32
  let v16 : BitVec 32 := Scalar.muli v15 c512_i32_9
  let v98 : Index := Scalar.indexCast v16
  ![1, 0, v98.toNat]
def k0_dev4 (d0 : Dev nD) : Nat :=
  let c0_i32_88 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_87 : BitVec 32 := 4#32
  let v105 : BitVec 32 := Scalar.muli v2 c4_i32_87
  let v106 : BitVec 32 := Scalar.addi c0_i32_88 v105
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_89 : BitVec 32 := 2#32
  let v107 : BitVec 32 := Scalar.muli v9 c2_i32_89
  let v108 : BitVec 32 := Scalar.addi v106 v107
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_90 : BitVec 32 := 1#32
  let v109 : BitVec 32 := Scalar.muli v8 c1_i32_90
  let v110 : BitVec 32 := Scalar.addi v108 v109
  v110.toNat
def k0_off5 (d0 : Dev nD) : Fin 3 → Nat :=
  let c2 : Index := 2#32
  let c0_101 : Index := 0#32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c512_i32_9 : BitVec 32 := 512#32
  let v16 : BitVec 32 := Scalar.muli v15 c512_i32_9
  let v125 : Index := Scalar.indexCast v16
  ![2, 0, v125.toNat]
def k0_dev5 (d0 : Dev nD) : Nat :=
  let c0_i32_110 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_109 : BitVec 32 := 4#32
  let v132 : BitVec 32 := Scalar.muli v2 c4_i32_109
  let v133 : BitVec 32 := Scalar.addi c0_i32_110 v132
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_111 : BitVec 32 := 2#32
  let v134 : BitVec 32 := Scalar.muli v9 c2_i32_111
  let v135 : BitVec 32 := Scalar.addi v133 v134
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_112 : BitVec 32 := 1#32
  let v136 : BitVec 32 := Scalar.muli v8 c1_i32_112
  let v137 : BitVec 32 := Scalar.addi v135 v136
  v137.toNat
def k0_off6 (d0 : Dev nD) : Fin 3 → Nat :=
  let c3 : Index := 3#32
  let c0_123 : Index := 0#32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c512_i32_9 : BitVec 32 := 512#32
  let v16 : BitVec 32 := Scalar.muli v15 c512_i32_9
  let v152 : Index := Scalar.indexCast v16
  ![3, 0, v152.toNat]
def k0_dev6 (d0 : Dev nD) : Nat :=
  let c0_i32_132 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_131 : BitVec 32 := 4#32
  let v159 : BitVec 32 := Scalar.muli v2 c4_i32_131
  let v160 : BitVec 32 := Scalar.addi c0_i32_132 v159
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_133 : BitVec 32 := 2#32
  let v161 : BitVec 32 := Scalar.muli v9 c2_i32_133
  let v162 : BitVec 32 := Scalar.addi v160 v161
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_134 : BitVec 32 := 1#32
  let v163 : BitVec 32 := Scalar.muli v8 c1_i32_134
  let v164 : BitVec 32 := Scalar.addi v162 v163
  v164.toNat
def k0_off7 (d0 : Dev nD) : Fin 3 → Nat :=
  let c4 : Index := 4#32
  let c0_145 : Index := 0#32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c512_i32_9 : BitVec 32 := 512#32
  let v16 : BitVec 32 := Scalar.muli v15 c512_i32_9
  let v179 : Index := Scalar.indexCast v16
  ![4, 0, v179.toNat]
def k0_dev7 (d0 : Dev nD) : Nat :=
  let c0_i32_154 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_153 : BitVec 32 := 4#32
  let v186 : BitVec 32 := Scalar.muli v2 c4_i32_153
  let v187 : BitVec 32 := Scalar.addi c0_i32_154 v186
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_155 : BitVec 32 := 2#32
  let v188 : BitVec 32 := Scalar.muli v9 c2_i32_155
  let v189 : BitVec 32 := Scalar.addi v187 v188
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_156 : BitVec 32 := 1#32
  let v190 : BitVec 32 := Scalar.muli v8 c1_i32_156
  let v191 : BitVec 32 := Scalar.addi v189 v190
  v191.toNat
def k0_off8 (d0 : Dev nD) : Fin 3 → Nat :=
  let c0_183 : Index := 0#32
  let c0_184 : Index := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c512_i32_7 : BitVec 32 := 512#32
  let v14 : BitVec 32 := Scalar.muli v5 c512_i32_7
  let v219 : Index := Scalar.indexCast v14
  ![0, 0, v219.toNat]
def k0_off9 (d0 : Dev nD) (c0_i32_182 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v11 : BitVec 32 := Scalar.muli v8 c512_i32
  let v218 : BitVec 32 := Scalar.addi v11 c0_i32_182
  let c0_i32_198 : BitVec 32 := 0#32
  ![v218.toNat, 0]
def k0_dev8 (d0 : Dev nD) : Nat :=
  let c0_i32_195 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_194 : BitVec 32 := 4#32
  let v229 : BitVec 32 := Scalar.muli v2 c4_i32_194
  let v230 : BitVec 32 := Scalar.addi c0_i32_195 v229
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_196 : BitVec 32 := 2#32
  let v231 : BitVec 32 := Scalar.muli v5 c2_i32_196
  let v232 : BitVec 32 := Scalar.addi v230 v231
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_197 : BitVec 32 := 1#32
  let v233 : BitVec 32 := Scalar.muli v10 c1_i32_197
  let v234 : BitVec 32 := Scalar.addi v232 v233
  v234.toNat
def k0_off10 (d0 : Dev nD) : Fin 3 → Nat :=
  let c1_228 : Index := 1#32
  let c0_229 : Index := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c512_i32_7 : BitVec 32 := 512#32
  let v14 : BitVec 32 := Scalar.muli v5 c512_i32_7
  let v266 : Index := Scalar.indexCast v14
  ![1, 0, v266.toNat]
def k0_dev9 (d0 : Dev nD) : Nat :=
  let c0_i32_240 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_239 : BitVec 32 := 4#32
  let v276 : BitVec 32 := Scalar.muli v2 c4_i32_239
  let v277 : BitVec 32 := Scalar.addi c0_i32_240 v276
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_241 : BitVec 32 := 2#32
  let v278 : BitVec 32 := Scalar.muli v5 c2_i32_241
  let v279 : BitVec 32 := Scalar.addi v277 v278
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_242 : BitVec 32 := 1#32
  let v280 : BitVec 32 := Scalar.muli v10 c1_i32_242
  let v281 : BitVec 32 := Scalar.addi v279 v280
  v281.toNat
def k0_off11 (d0 : Dev nD) : Fin 3 → Nat :=
  let c2_273 : Index := 2#32
  let c0_274 : Index := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c512_i32_7 : BitVec 32 := 512#32
  let v14 : BitVec 32 := Scalar.muli v5 c512_i32_7
  let v313 : Index := Scalar.indexCast v14
  ![2, 0, v313.toNat]
def k0_dev10 (d0 : Dev nD) : Nat :=
  let c0_i32_285 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_284 : BitVec 32 := 4#32
  let v323 : BitVec 32 := Scalar.muli v2 c4_i32_284
  let v324 : BitVec 32 := Scalar.addi c0_i32_285 v323
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_286 : BitVec 32 := 2#32
  let v325 : BitVec 32 := Scalar.muli v5 c2_i32_286
  let v326 : BitVec 32 := Scalar.addi v324 v325
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_287 : BitVec 32 := 1#32
  let v327 : BitVec 32 := Scalar.muli v10 c1_i32_287
  let v328 : BitVec 32 := Scalar.addi v326 v327
  v328.toNat
def k0_off12 (d0 : Dev nD) : Fin 3 → Nat :=
  let c3_318 : Index := 3#32
  let c0_319 : Index := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c512_i32_7 : BitVec 32 := 512#32
  let v14 : BitVec 32 := Scalar.muli v5 c512_i32_7
  let v360 : Index := Scalar.indexCast v14
  ![3, 0, v360.toNat]
def k0_off13 (d0 : Dev nD) : Fin 3 → Nat :=
  let c4_353 : Index := 4#32
  let c0_354 : Index := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c512_i32_7 : BitVec 32 := 512#32
  let v14 : BitVec 32 := Scalar.muli v5 c512_i32_7
  let v394 : Index := Scalar.indexCast v14
  ![4, 0, v394.toNat]
def k0_off14 (d0 : Dev nD) : Fin 2 → Nat :=
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let c512_i32_6 : BitVec 32 := 512#32
  let v13 : BitVec 32 := Scalar.muli v12 c512_i32_6
  let c384_i32_352 : BitVec 32 := 384#32
  let v393 : BitVec 32 := Scalar.addi v13 c384_i32_352
  let c0_i32_363 : BitVec 32 := 0#32
  ![v393.toNat, 0]

class Facts₀ : Prop where
  hamt_1 : (1#32 : BitVec 32).msb = false
  inb_S5_S1_0 : ∀ a, (![0] : Fin 1 → Nat) a + S1.size a ≤ S5.size a
  squeezes_S1_S_ : S1.Squeezes S_
  inb_S5x128x1024_S1x128x1024_0_0_0 : ∀ a, (![0, 0, 0] : Fin 3 → Nat) a + S1x128x1024.size a ≤ S5x128x1024.size a
  squeezes_S1x128x1024_S128x1024 : S1x128x1024.Squeezes S128x1024
  inb_S5_S1_1 : ∀ a, (![1] : Fin 1 → Nat) a + S1.size a ≤ S5.size a
  inb_S5x128x1024_S1x128x1024_1_0_0 : ∀ a, (![1, 0, 0] : Fin 3 → Nat) a + S1x128x1024.size a ≤ S5x128x1024.size a
  inb_S5_S1_2 : ∀ a, (![2] : Fin 1 → Nat) a + S1.size a ≤ S5.size a
  inb_S5x128x1024_S1x128x1024_2_0_0 : ∀ a, (![2, 0, 0] : Fin 3 → Nat) a + S1x128x1024.size a ≤ S5x128x1024.size a
  inb_S5_S1_3 : ∀ a, (![3] : Fin 1 → Nat) a + S1.size a ≤ S5.size a
  inb_S5x128x1024_S1x128x1024_3_0_0 : ∀ a, (![3, 0, 0] : Fin 3 → Nat) a + S1x128x1024.size a ≤ S5x128x1024.size a
  inb_S5_S1_4 : ∀ a, (![4] : Fin 1 → Nat) a + S1.size a ≤ S5.size a
  inb_S5x128x1024_S1x128x1024_4_0_0 : ∀ a, (![4, 0, 0] : Fin 3 → Nat) a + S1x128x1024.size a ≤ S5x128x1024.size a
  h_S1x128x512 : 0 < S1x128x512.numel
  shapeCasts_S1x128x512_S128x512 : S1x128x512.ShapeCasts S128x512
  bitsLt_bf16_f32 : FTy.bits .bf16 < FTy.bits .f32
  inb_S5x128x512_S1x128x512_0_0_0 : ∀ a, (![0, 0, 0] : Fin 3 → Nat) a + S1x128x512.size a ≤ S5x128x512.size a
  shapeCasts_S128x512_S1x128x512 : S128x512.ShapeCasts S1x128x512
  packedbf16_S5x128x512_S1x128x512_0_0_0 : (Rect.unit (s := S5x128x512) ![0, 0, 0] S1x128x512.size inb_S5x128x512_S1x128x512_0_0_0).PackedRows (EltTy.packing .bf16)
  hamt_2 : (2#32 : BitVec 32).msb = false
  squeezes_S1x128x512_S128x512 : S1x128x512.Squeezes S128x512
  wordsbf16_S5x128x512_S1x128x512_0_0_0 : (Rect.unit (s := S5x128x512) ![0, 0, 0] S1x128x512.size inb_S5x128x512_S1x128x512_0_0_0).WholeWords (EltTy.packing .bf16)
  inb_S5x128x512_S1x128x512_1_0_0 : ∀ a, (![1, 0, 0] : Fin 3 → Nat) a + S1x128x512.size a ≤ S5x128x512.size a
  packedbf16_S5x128x512_S1x128x512_1_0_0 : (Rect.unit (s := S5x128x512) ![1, 0, 0] S1x128x512.size inb_S5x128x512_S1x128x512_1_0_0).PackedRows (EltTy.packing .bf16)
  wordsbf16_S5x128x512_S1x128x512_1_0_0 : (Rect.unit (s := S5x128x512) ![1, 0, 0] S1x128x512.size inb_S5x128x512_S1x128x512_1_0_0).WholeWords (EltTy.packing .bf16)
  inb_S5x128x512_S1x128x512_2_0_0 : ∀ a, (![2, 0, 0] : Fin 3 → Nat) a + S1x128x512.size a ≤ S5x128x512.size a
  packedbf16_S5x128x512_S1x128x512_2_0_0 : (Rect.unit (s := S5x128x512) ![2, 0, 0] S1x128x512.size inb_S5x128x512_S1x128x512_2_0_0).PackedRows (EltTy.packing .bf16)
  wordsbf16_S5x128x512_S1x128x512_2_0_0 : (Rect.unit (s := S5x128x512) ![2, 0, 0] S1x128x512.size inb_S5x128x512_S1x128x512_2_0_0).WholeWords (EltTy.packing .bf16)
  inb_S5x128x512_S1x128x512_3_0_0 : ∀ a, (![3, 0, 0] : Fin 3 → Nat) a + S1x128x512.size a ≤ S5x128x512.size a
  packedbf16_S5x128x512_S1x128x512_3_0_0 : (Rect.unit (s := S5x128x512) ![3, 0, 0] S1x128x512.size inb_S5x128x512_S1x128x512_3_0_0).PackedRows (EltTy.packing .bf16)
  wordsbf16_S5x128x512_S1x128x512_3_0_0 : (Rect.unit (s := S5x128x512) ![3, 0, 0] S1x128x512.size inb_S5x128x512_S1x128x512_3_0_0).WholeWords (EltTy.packing .bf16)
  inb_S5x128x512_S1x128x512_4_0_0 : ∀ a, (![4, 0, 0] : Fin 3 → Nat) a + S1x128x512.size a ≤ S5x128x512.size a
  packedbf16_S5x128x512_S1x128x512_4_0_0 : (Rect.unit (s := S5x128x512) ![4, 0, 0] S1x128x512.size inb_S5x128x512_S1x128x512_4_0_0).PackedRows (EltTy.packing .bf16)
  wordsbf16_S5x128x512_S1x128x512_4_0_0 : (Rect.unit (s := S5x128x512) ![4, 0, 0] S1x128x512.size inb_S5x128x512_S1x128x512_4_0_0).WholeWords (EltTy.packing .bf16)
  inb_S3_S1_0 : ∀ a, (![0] : Fin 1 → Nat) a + S1.size a ≤ S3.size a
  inb_S3_S1_1 : ∀ a, (![1] : Fin 1 → Nat) a + S1.size a ≤ S3.size a
  inb_S3_S1_2 : ∀ a, (![2] : Fin 1 → Nat) a + S1.size a ≤ S3.size a
  hcc0_scratch4 : 0 + S5.numel ≤ 26
  hcc0_scratch5 : 5 + S5.numel ≤ 26
  hcc0_scratch6 : 10 + S5.numel ≤ 26
  hcc0_scratch7 : 15 + S5.numel ≤ 26
  hcc0_scratch8 : 20 + S3.numel ≤ 26
  hcc0_scratch9 : 23 + S3.numel ≤ 26
  k0_dev1_lt : ∀ d0 : Dev nD, (k0_dev1 d0) < nD
  k0_dev2_lt : ∀ d0 : Dev nD, (k0_dev2 d0) < nD
  k0_off1_inb : ∀ d0 : Dev nD, ∀ (r : Fin 4), ∀ a, (k0_off1 d0 (BitVec.ofNat 32 (128 * r.val))) a + S1x128x1024.size a ≤ S1x1024x1024.size a
  k0_off2_inb : ∀ d0 : Dev nD, ∀ a, (k0_off2 d0) a + S1x128x1024.size a ≤ S1x1024x1024.size a
  k0_off3_inb : ∀ d0 : Dev nD, ∀ a, (k0_off3 d0) a + S1x128x512.size a ≤ S5x128x1024.size a
  k0_dev3_lt : ∀ d0 : Dev nD, (k0_dev3 d0) < nD
  k0_off4_inb : ∀ d0 : Dev nD, ∀ a, (k0_off4 d0) a + S1x128x512.size a ≤ S5x128x1024.size a
  k0_dev4_lt : ∀ d0 : Dev nD, (k0_dev4 d0) < nD
  k0_off5_inb : ∀ d0 : Dev nD, ∀ a, (k0_off5 d0) a + S1x128x512.size a ≤ S5x128x1024.size a
  k0_dev5_lt : ∀ d0 : Dev nD, (k0_dev5 d0) < nD
  k0_off6_inb : ∀ d0 : Dev nD, ∀ a, (k0_off6 d0) a + S1x128x512.size a ≤ S5x128x1024.size a
  k0_dev6_lt : ∀ d0 : Dev nD, (k0_dev6 d0) < nD
  k0_off7_inb : ∀ d0 : Dev nD, ∀ a, (k0_off7 d0) a + S1x128x512.size a ≤ S5x128x1024.size a
  k0_dev7_lt : ∀ d0 : Dev nD, (k0_dev7 d0) < nD
  k0_off8_inb : ∀ d0 : Dev nD, ∀ a, (k0_off8 d0) a + S1x128x512.size a ≤ S5x128x1024.size a
  k0_off9_inb : ∀ d0 : Dev nD, ∀ (r : Fin 4), ∀ a, (k0_off9 d0 (BitVec.ofNat 32 (128 * r.val))) a + S128x512.size a ≤ S1024x512.size a
  k0_off9_wordsbf16 : ∀ d0 : Dev nD, ∀ (r : Fin 4), (Rect.unit (s := S1024x512) (k0_off9 d0 (BitVec.ofNat 32 (128 * r.val))) S128x512.size (k0_off9_inb d0 r)).WholeWords (EltTy.packing .bf16)
  k0_dev8_lt : ∀ d0 : Dev nD, (k0_dev8 d0) < nD
  k0_off10_inb : ∀ d0 : Dev nD, ∀ a, (k0_off10 d0) a + S1x128x512.size a ≤ S5x128x1024.size a
  k0_dev9_lt : ∀ d0 : Dev nD, (k0_dev9 d0) < nD
  k0_off11_inb : ∀ d0 : Dev nD, ∀ a, (k0_off11 d0) a + S1x128x512.size a ≤ S5x128x1024.size a
  k0_dev10_lt : ∀ d0 : Dev nD, (k0_dev10 d0) < nD
  k0_off12_inb : ∀ d0 : Dev nD, ∀ a, (k0_off12 d0) a + S1x128x512.size a ≤ S5x128x1024.size a
  k0_off13_inb : ∀ d0 : Dev nD, ∀ a, (k0_off13 d0) a + S1x128x512.size a ≤ S5x128x1024.size a
  k0_off14_inb : ∀ d0 : Dev nD, ∀ a, (k0_off14 d0) a + S128x512.size a ≤ S1024x512.size a
  k0_off14_wordsbf16 : ∀ d0 : Dev nD, (Rect.unit (s := S1024x512) (k0_off14 d0) S128x512.size (k0_off14_inb d0)).WholeWords (EltTy.packing .bf16)

variable [Facts₀]

abbrev cc0_scratch4 : DmaSems sig S5 := SemArray.consecutive 0 S5 hcc0_scratch4
abbrev cc0_scratch5 : DmaSems sig S5 := SemArray.consecutive 5 S5 hcc0_scratch5
abbrev cc0_scratch6 : DmaSems sig S5 := SemArray.consecutive 10 S5 hcc0_scratch6
abbrev cc0_scratch7 : DmaSems sig S5 := SemArray.consecutive 15 S5 hcc0_scratch7
abbrev cc0_scratch8 : DmaSems sig S3 := SemArray.consecutive 20 S3 hcc0_scratch8
abbrev cc0_scratch9 : DmaSems sig S3 := SemArray.consecutive 23 S3 hcc0_scratch9

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S2x1024x1024 : Shape := ⟨3, ![2, 1024, 1024]⟩
abbrev S_ : Shape := ⟨0, ![]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S_, .f32⟩
  | .hbm, ⟨2, _⟩ => ⟨S1024x1024, .f32⟩
  | .hbm, ⟨3, _⟩ => ⟨S1024x1024, .bf16⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S2x1024x1024_S1024x1024_d0 : S2x1024x1024.ReducesTo [0] S1024x1024
  h_S_ : 0 < S_.numel
  bitsLt_bf16_f32 : FTy.bits .bf16 < FTy.bits .f32

variable [Facts₀]

class Facts : Prop extends Facts₀ where

variable [Facts]
-- ==== Proof.Proto.lean ====
import proofs.«901023_g7700000000001024_dist_rs_v7x_xyz2x2x2_y_m1024_n512_bf16_1_alg».proof.Proof.Gen.KernelIdeal.Skeleton
import proofs.«901023_g7700000000001024_dist_rs_v7x_xyz2x2x2_y_m1024_n512_bf16_1_alg».proof.Proof.Gen.KernelIdeal.Launch
import proofs.«901023_g7700000000001024_dist_rs_v7x_xyz2x2x2_y_m1024_n512_bf16_1_alg».proof.Proof.Gen.KernelIdeal.Points
import Idealize.ShloMosaic.Lib.Pipeline.Value
import Idealize.ShloMosaic.Lib.Tactic

noncomputable section

namespace Cert.KernelIdeal.RS

open Cert.KernelIdeal Cert.KernelIdeal.Gen
open Idealize.ShloMosaic
open Idealize.ShloMosaic.TcCoe

def yp (c : Dev nD) : Dev nD := (![2, 3, 0, 1, 6, 7, 4, 5] : Fin 8 → Fin 8) c

def zn (c : Dev nD) : Dev nD := (![1, 0, 3, 2, 5, 4, 7, 6] : Fin 8 → Fin 8) c

theorem yp_yp (c : Dev nD) : yp (yp c) = c := by revert c; decide
theorem zn_zn (c : Dev nD) : zn (zn c) = c := by revert c; decide
def ypE : Dev nD ≃ Dev nD := ⟨yp, yp, yp_yp, yp_yp⟩
def znE : Dev nD ≃ Dev nD := ⟨zn, zn, zn_zn, zn_zn⟩

theorem yp_val (c : Dev nD) : (yp c).val = (4 * (c.val / 4) + (c.val % 2) + 2) - 2 * ((c.val / 2) % 2) := by revert c; decide
theorem zn_val (c : Dev nD) : (zn c).val = (4 * (c.val / 4) + 2 * ((c.val / 2) % 2) + 1) - (c.val % 2) := by revert c; decide

theorem dev1_eq (c : Dev nD) : (⟨k0_dev1 c, k0_dev1_lt c⟩ : Dev nD) = yp c := Fin.ext ((k0_dev1_eq c).trans (yp_val c).symm)
theorem dev2_eq (c : Dev nD) : (⟨k0_dev2 c, k0_dev2_lt c⟩ : Dev nD) = zn c := Fin.ext ((k0_dev2_eq c).trans (zn_val c).symm)
theorem dev3_eq (c : Dev nD) : (⟨k0_dev3 c, k0_dev3_lt c⟩ : Dev nD) = yp c := Fin.ext ((k0_dev3_eq c).trans (yp_val c).symm)
theorem dev4_eq (c : Dev nD) : (⟨k0_dev4 c, k0_dev4_lt c⟩ : Dev nD) = yp c := Fin.ext ((k0_dev4_eq c).trans (yp_val c).symm)
theorem dev5_eq (c : Dev nD) : (⟨k0_dev5 c, k0_dev5_lt c⟩ : Dev nD) = yp c := Fin.ext ((k0_dev5_eq c).trans (yp_val c).symm)
theorem dev6_eq (c : Dev nD) : (⟨k0_dev6 c, k0_dev6_lt c⟩ : Dev nD) = yp c := Fin.ext ((k0_dev6_eq c).trans (yp_val c).symm)
theorem dev7_eq (c : Dev nD) : (⟨k0_dev7 c, k0_dev7_lt c⟩ : Dev nD) = yp c := Fin.ext ((k0_dev7_eq c).trans (yp_val c).symm)
theorem dev8_eq (c : Dev nD) : (⟨k0_dev8 c, k0_dev8_lt c⟩ : Dev nD) = zn c := Fin.ext ((k0_dev8_eq c).trans (zn_val c).symm)
theorem dev9_eq (c : Dev nD) : (⟨k0_dev9 c, k0_dev9_lt c⟩ : Dev nD) = zn c := Fin.ext ((k0_dev9_eq c).trans (zn_val c).symm)
theorem dev10_eq (c : Dev nD) : (⟨k0_dev10 c, k0_dev10_lt c⟩ : Dev nD) = zn c := Fin.ext ((k0_dev10_eq c).trans (zn_val c).symm)

abbrev xA : Memref sig .tc .hbm S1x1024x1024 .f32 := Memref.whole main_arg0
abbrev oA : Memref sig .tc .hbm S1024x512 .bf16 := Memref.whole main_v1
abbrev inAll : Memref sig .tc .vmem S5x128x1024 .f32 := Memref.whole cc0_scratch0
abbrev sendY : Memref sig .tc .vmem S5x128x512 .bf16 := Memref.whole cc0_scratch1
abbrev recvY : Memref sig .tc .vmem S5x128x512 .bf16 := Memref.whole cc0_scratch2
abbrev sumB : Memref sig .tc .vmem S5x128x512 .bf16 := Memref.whole cc0_scratch3

theorem inb_slot (k : Fin 5) : ∀ a, (![k.val, 0, 0] : Fin 3 → Nat) a + S1x128x512.size a ≤ S5x128x512.size a := by revert k; decide
theorem inb_slotIn (k : Fin 5) : ∀ a, (![k.val, 0, 0] : Fin 3 → Nat) a + S1x128x1024.size a ≤ S5x128x1024.size a := by revert k; decide

abbrev slot (b : Memref sig .tc .vmem S5x128x512 .bf16) (k : Fin 5) : Memref sig .tc .vmem S128x512 .bf16 :=
  (b.slice (Rect.unit (s := S5x128x512) ![k.val, 0, 0] S1x128x512.size (inb_slot k)) (fun _ => rfl)).squeeze S128x512 squeezes_S1x128x512_S128x512

abbrev slotIn (k : Fin 5) : Memref sig .tc .vmem S128x1024 .f32 :=
  (inAll.slice (Rect.unit (s := S5x128x1024) ![k.val, 0, 0] S1x128x1024.size (inb_slotIn k)) (fun _ => rfl)).squeeze S128x1024 squeezes_S1x128x1024_S128x1024

abbrev outSl (c : Dev nD) (k : Fin 4) : Memref sig .tc .hbm S128x512 .bf16 :=
  oA.slice (Rect.unit (s := S1024x512) (k0_off9 c (BitVec.ofNat 32 (128 * k.val))) S128x512.size (k0_off9_inb c k)) (fun _ => rfl)

abbrev outSlX (c : Dev nD) : Memref sig .tc .hbm S128x512 .bf16 :=
  oA.slice (Rect.unit (s := S1024x512) (k0_off14 c) S128x512.size (k0_off14_inb c)) (fun _ => rfl)

abbrev barS : Sem sig := (SemArray.scalar (sig.barrier 0 rfl) : Sems sig S_).sem

theorem nDma : sig.nDmaSem = 26 := rfl

abbrev dsemL (k : Fin 5) : DmaSem sig := ⟨k.val, by have := k.isLt; rw [nDma]; omega⟩
abbrev osemL (k : Fin 5) : DmaSem sig := ⟨5 + k.val, by have := k.isLt; rw [nDma]; omega⟩
abbrev ysendL (k : Fin 5) : DmaSem sig := ⟨10 + k.val, by have := k.isLt; rw [nDma]; omega⟩
abbrev yrecvL (k : Fin 5) : DmaSem sig := ⟨15 + k.val, by have := k.isLt; rw [nDma]; omega⟩
abbrev zsendL (k : Fin 3) : DmaSem sig := ⟨20 + k.val, by have := k.isLt; rw [nDma]; omega⟩
abbrev zrecvL (k : Fin 3) : DmaSem sig := ⟨23 + k.val, by have := k.isLt; rw [nDma]; omega⟩

abbrev barCell (c : Dev nD) : GSem nD τ sig := ((c : Thread nD τ), .reg barS)
abbrev ysendCell (c : Dev nD) (k : Fin 5) : GSem nD τ sig := ((c : Thread nD τ), .dma (ysendL k))
abbrev yrecvCell (c : Dev nD) (k : Fin 5) : GSem nD τ sig := ((c : Thread nD τ), .dma (yrecvL k))
abbrev zsendCell (c : Dev nD) (k : Fin 3) : GSem nD τ sig := ((c : Thread nD τ), .dma (zsendL k))
abbrev zrecvCell (c : Dev nD) (k : Fin 3) : GSem nD τ sig := ((c : Thread nD τ), .dma (zrecvL k))

abbrev N : ℕ := (slot recvY 0).view.dmaCredit
theorem N_pos : 0 < N := View.dmaCredit_pos _ (by decide)

end Cert.KernelIdeal.RS

end
-- ==== Proof.Vals.lean ====
import proofs.«901023_g7700000000001024_dist_rs_v7x_xyz2x2x2_y_m1024_n512_bf16_1_alg».proof.Proof.Proto
import Idealize.ShloMosaic.Lib.ValueIdx

noncomputable section

namespace Cert.KernelIdeal.RS

open Cert.KernelIdeal Cert.KernelIdeal.Gen
open Idealize.ShloMosaic
open Idealize.ShloMosaic.TcCoe

open Idealize.ShloMosaic.ValueIdx

variable {F : FTy → Type} [FloatOps F]

def T (x : F .f32) : F .bf16 := FloatOps.truncf .bf16 bitsLt_bf16_f32 x

def rowOf (c : Dev nD) (k : ℕ) : ℕ := if k < 4 then 512 * (c.val % 2) + 128 * k else 896 - 512 * (c.val % 2)

def mcol (c : Dev nD) : ℕ := 512 * ((c.val / 2) % 2)

def pcol (c : Dev nD) : ℕ := 512 - 512 * ((c.val / 2) % 2)

theorem rowOf_lt (c : Dev nD) (k : ℕ) (hk : k < 5) (r : ℕ) (hr : r < 128) : rowOf c k + r < 1024 := by
  unfold rowOf; split <;> omega
theorem mcol_lt (c : Dev nD) (j : ℕ) (hj : j < 512) : mcol c + j < 1024 := by unfold mcol; omega
theorem pcol_lt (c : Dev nD) (j : ℕ) (hj : j < 512) : pcol c + j < 1024 := by unfold pcol; omega
theorem yp_z (c : Dev nD) : (yp c).val % 2 = c.val % 2 := by revert c; decide
theorem zn_z (c : Dev nD) : (zn c).val % 2 = 1 - c.val % 2 := by revert c; decide
theorem rowOf_yp (c : Dev nD) (k : ℕ) : rowOf (yp c) k = rowOf c k := by unfold rowOf; rw [yp_z]
theorem pcol_yp (c : Dev nD) : pcol (yp c) = mcol c := by revert c; decide
def fin1024 (r : ℕ) : Fin 1024 := ⟨r % 1024, Nat.mod_lt _ (by decide)⟩
theorem fin1024_val (r : ℕ) (h : r < 1024) : (fin1024 r).val = r := Nat.mod_eq_of_lt h

def xAt (X : S1x1024x1024.Idx → F .f32) (r j : ℕ) : F .f32 := X (ix3 (0 : Fin 1) (fin1024 r) (fin1024 j))

def inG (X : S1x1024x1024.Idx → F .f32) (c : Dev nD) (k : ℕ) (r j' : ℕ) : F .f32 := xAt X (rowOf c k + r) j'

def sendG (X : S1x1024x1024.Idx → F .f32) (c : Dev nD) (k : ℕ) (r j : ℕ) : F .bf16 := T (inG X c k r (pcol c + j))

def sumG (X : S1x1024x1024.Idx → F .f32) (Y : ℕ → ℕ → F .bf16) (c : Dev nD) (k : ℕ) (r j : ℕ) : F .bf16 :=
  FloatOps.addf (T (inG X c k r (mcol c + j))) (Y r j)

def SlotIs (f : S5x128x512.Idx → F .bf16) (k : Fin 5) (g : ℕ → ℕ → F .bf16) : Prop :=
  ∀ (r : Fin 128) (j : Fin 512), f (ix3 k r j) = g r.val j.val

def SlotInIs (f : S5x128x1024.Idx → F .f32) (k : Fin 5) (g : ℕ → ℕ → F .f32) : Prop :=
  ∀ (r : Fin 128) (j : Fin 1024), f (ix3 k r j) = g r.val j.val

def RowsAre (f : S1024x512.Idx → F .bf16) (row0 : ℕ) (g : ℕ → ℕ → F .bf16) : Prop :=
  ∀ (r : Fin 128) (j : Fin 512), f (ix2 (fin1024 (row0 + r.val)) j) = g r.val j.val

end Cert.KernelIdeal.RS

end
-- ==== Proof.Sched.lean ====
import proofs.«901023_g7700000000001024_dist_rs_v7x_xyz2x2x2_y_m1024_n512_bf16_1_alg».proof.Proof.Vals

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × (UB × Counters)
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev 𝒱₀ : Variants := Variants.none

variable (m : (ℓ : Loc nD τ sig) → Buf (Elt F) ℓ)

abbrev X (c : Dev nD) : S1x1024x1024.Idx → F .f32 := m ((c : Thread nD τ).loc main_arg0)

abbrev slotPts (b : Memref sig .tc .vmem S5x128x512 .bf16) (q : PosShare TreeShare) (c : Dev nD) (k : Fin 5)
    (f : Buf (Elt F) ((slot b k).view.loc (c : Thread nD τ))) : sProp 𝕄 :=
  (slot b k).view.loc (c : Thread nD τ) ↦[(slot b k).view.set]{q} f

abbrev rowsPts (c : Dev nD) (M : Memref sig .tc .hbm S128x512 .bf16) (f : Buf (Elt F) (M.view.loc (c : Thread nD τ))) : sProp 𝕄 :=
  M.view.loc (c : Thread nD τ) ↦[M.view.set]{fullShare} f

abbrev k5 (k : Fin 3) : Fin 5 := ⟨k.val, by omega⟩
abbrev k4 (k : Fin 3) : Fin 4 := ⟨k.val, by omega⟩

def barPayY (d : Dev nD) : sProp 𝕄 :=
  iprop((∃ f, slotPts recvY fullShare (yp d) 0 f) ∗ (∃ f, slotPts recvY fullShare (yp d) 1 f) ∗ (∃ f, slotPts recvY fullShare (yp d) 2 f)
    ∗ (∃ f, slotPts recvY fullShare (yp d) 3 f) ∗ (∃ f, slotPts recvY fullShare (yp d) 4 f))

def barPayZ (d : Dev nD) : sProp 𝕄 :=
  iprop((∃ f, rowsPts (zn d) (outSl d 0) f) ∗ (∃ f, rowsPts (zn d) (outSl d 1) f) ∗ (∃ f, rowsPts (zn d) (outSl d 2) f))

def ysendPay (c : Dev nD) (k : Fin 5) : sProp 𝕄 := iprop(∃ f, slotPts sendY fullShare c k f)

def yrecvPay (c : Dev nD) (k : Fin 5) : sProp 𝕄 :=
  iprop(∃ f, slotPts recvY fullShare c k f ∗ ⌜SlotIs f k (sendG (X m (yp c)) (yp c) k.val)⌝)

def zsendPay (c : Dev nD) (k : Fin 3) : sProp 𝕄 := iprop(∃ f, slotPts sumB fullShare.left c (k5 k) f)

def zrecvPay (c : Dev nD) (k : Fin 3) : sProp 𝕄 :=
  iprop(∃ f, rowsPts c (outSl (zn c) (k4 k)) f
    ∗ ⌜RowsAre f (rowOf (zn c) k.val) (sumG (X m (zn c)) (sendG (X m (yp (zn c))) (yp (zn c)) k.val) (zn c) k.val)⌝)

def payDma (c : Dev nD) (j : ℕ) : sProp 𝕄 :=
  if h : 10 ≤ j ∧ j < 15 then ysendPay c ⟨j - 10, by omega⟩
  else if h : 15 ≤ j ∧ j < 20 then yrecvPay m c ⟨j - 15, by omega⟩
  else if h : 20 ≤ j ∧ j < 23 then zsendPay c ⟨j - 20, by omega⟩
  else if h : 23 ≤ j ∧ j < 26 then zrecvPay m c ⟨j - 23, by omega⟩
  else iprop(emp)

def Rd : Rounds.Schedule (GSem nD τ sig) Bool 𝕄 where
  duties g r := if r = 0 ∧ g.1.2 = .tc then (match g.2 with | .reg _ => Finset.univ | .dma j => if 10 ≤ j.val then {false} else ∅) else ∅
  unitless _ := False
  amount g _ _ := match g.2 with | .reg _ => 1 | .dma _ => N
  payload g _ d := match g.2 with
    | .reg _ => if d then barPayZ g.1.1 else barPayY g.1.1
    | .dma j => payDma m g.1.1 j.val
  amount_pos g _ _ _ := by
    cases g.2 with
    | reg s => exact Nat.one_pos
    | dma j => exact N_pos

set_option synthInstance.maxHeartbeats 2000000 in
instance barPayY_storable (d : Dev nD) : BI.Storable (upEmb : UEmb _ 𝕄) (barPayY (F := F) d) := by unfold barPayY; infer_instance
set_option synthInstance.maxHeartbeats 2000000 in
instance barPayZ_storable (d : Dev nD) : BI.Storable (upEmb : UEmb _ 𝕄) (barPayZ (F := F) d) := by unfold barPayZ; infer_instance
set_option synthInstance.maxHeartbeats 2000000 in
instance payDma_storable (c : Dev nD) (j : ℕ) : BI.Storable (upEmb : UEmb _ 𝕄) (payDma (F := F) m c j) := by
  unfold payDma ysendPay yrecvPay zsendPay zrecvPay
  (repeat' split) <;> infer_instance

instance Rd_payload_storable (g : GSem nD τ sig) (r : ℕ) (d : Bool) :
    BI.Storable (upEmb : UEmb _ 𝕄) ((Rd (F := F) m).payload g r d) := by
  show BI.Storable upEmb (match g.2 with
    | .reg _ => if d then barPayZ g.1.1 else barPayY g.1.1
    | .dma j => payDma m g.1.1 j.val)
  (repeat' split) <;> infer_instance

section Tables
variable (c : Dev nD)

theorem duties_bar : (Rd (F := F) m).duties (barCell c) 0 = Finset.univ := by dsimp only [Rd]; exact if_pos ⟨rfl, rfl⟩
theorem duties_ysend (k : Fin 5) : (Rd (F := F) m).duties (ysendCell c k) 0 = {false} := by
  dsimp only [Rd]; rw [if_pos ⟨rfl, rfl⟩]; exact if_pos (by show 10 ≤ 10 + k.val; omega)
theorem duties_yrecv (k : Fin 5) : (Rd (F := F) m).duties (yrecvCell c k) 0 = {false} := by
  dsimp only [Rd]; rw [if_pos ⟨rfl, rfl⟩]; exact if_pos (by show 10 ≤ 15 + k.val; omega)
theorem duties_zsend (k : Fin 3) : (Rd (F := F) m).duties (zsendCell c k) 0 = {false} := by
  dsimp only [Rd]; rw [if_pos ⟨rfl, rfl⟩]; exact if_pos (by show 10 ≤ 20 + k.val; omega)
theorem duties_zrecv (k : Fin 3) : (Rd (F := F) m).duties (zrecvCell c k) 0 = {false} := by
  dsimp only [Rd]; rw [if_pos ⟨rfl, rfl⟩]; exact if_pos (by show 10 ≤ 23 + k.val; omega)
theorem duties_later (g : GSem nD τ sig) : ∀ r, 1 ≤ r → (Rd (F := F) m).duties g r = ∅ :=
  fun r hr => by dsimp only [Rd]; rw [if_neg fun h => by omega]

theorem amount_bar (d : Bool) : (Rd (F := F) m).amount (barCell c) 0 d = 1 := rfl
theorem amount_dma (j : DmaSem sig) (d : Bool) : (Rd (F := F) m).amount ((c : Thread nD τ), .dma j) 0 d = N := rfl

theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_ysend (k : Fin 5) : (Rd (F := F) m).expect (ysendCell c k) 0 = N := by
  unfold Schedule.expect Schedule.amountOf; rw [duties_ysend, Finset.sum_singleton]; rfl
theorem expect_yrecv (k : Fin 5) : (Rd (F := F) m).expect (yrecvCell c k) 0 = N := by
  unfold Schedule.expect Schedule.amountOf; rw [duties_yrecv, Finset.sum_singleton]; rfl
theorem expect_zsend (k : Fin 3) : (Rd (F := F) m).expect (zsendCell c k) 0 = N := by
  unfold Schedule.expect Schedule.amountOf; rw [duties_zsend, Finset.sum_singleton]; rfl
theorem expect_zrecv (k : Fin 3) : (Rd (F := F) m).expect (zrecvCell c k) 0 = N := by
  unfold Schedule.expect Schedule.amountOf; rw [duties_zrecv, Finset.sum_singleton]; rfl

theorem payload_bar_false : (Rd (F := F) m).payload (barCell c) 0 false = barPayY c := by
  dsimp only [Rd]; exact if_neg Bool.false_ne_true
theorem payload_bar_true : (Rd (F := F) m).payload (barCell c) 0 true = barPayZ c := by
  dsimp only [Rd]; exact if_pos rfl
theorem payload_ysend (k : Fin 5) (d : Bool) : (Rd (F := F) m).payload (ysendCell c k) 0 d = ysendPay c k := by
  show payDma m c (10 + k.val) = _
  unfold payDma; rw [dif_pos ⟨by omega, by omega⟩]; congr 1; exact Fin.ext (by simp)
theorem payload_yrecv (k : Fin 5) (d : Bool) : (Rd (F := F) m).payload (yrecvCell c k) 0 d = yrecvPay m c k := by
  show payDma m c (15 + k.val) = _
  unfold payDma; rw [dif_neg (by omega), dif_pos ⟨by omega, by omega⟩]; congr 1; exact Fin.ext (by simp)
theorem payload_zsend (k : Fin 3) (d : Bool) : (Rd (F := F) m).payload (zsendCell c k) 0 d = zsendPay c k := by
  show payDma m c (20 + k.val) = _
  unfold payDma; rw [dif_neg (by omega), dif_neg (by omega), dif_pos ⟨by omega, by omega⟩]; congr 1; exact Fin.ext (by simp)
theorem payload_zrecv (k : Fin 3) (d : Bool) : (Rd (F := F) m).payload (zrecvCell c k) 0 d = zrecvPay m c k := by
  show payDma m c (23 + k.val) = _
  unfold payDma; rw [dif_neg (by omega), dif_neg (by omega), dif_neg (by omega), dif_pos ⟨by omega, by omega⟩]; congr 1; exact Fin.ext (by simp)

theorem rest_bar : bigSep ((Rd (F := F) m).duties (barCell c) 0 \ ∅) (fun d => (Rd (F := F) m).payload (barCell c) 0 d) = iprop(barPayY c ∗ barPayZ c) := by
  rw [Finset.sdiff_empty, duties_bar, bigSep_univ_eq_bigSepL [false, true] (by decide) (by decide), bigSepL_cons_cons, bigSepL_singleton,
    payload_bar_false, payload_bar_true]
  rfl
theorem rest_ysend (k : Fin 5) : bigSep ((Rd (F := F) m).duties (ysendCell c k) 0 \ ∅) (fun d => (Rd (F := F) m).payload (ysendCell c k) 0 d) = ysendPay c k := by
  rw [Finset.sdiff_empty, duties_ysend, bigSep_singleton, payload_ysend]
theorem rest_yrecv (k : Fin 5) : bigSep ((Rd (F := F) m).duties (yrecvCell c k) 0 \ ∅) (fun d => (Rd (F := F) m).payload (yrecvCell c k) 0 d) = yrecvPay m c k := by
  rw [Finset.sdiff_empty, duties_yrecv, bigSep_singleton, payload_yrecv]
theorem rest_zsend (k : Fin 3) : bigSep ((Rd (F := F) m).duties (zsendCell c k) 0 \ ∅) (fun d => (Rd (F := F) m).payload (zsendCell c k) 0 d) = zsendPay c k := by
  rw [Finset.sdiff_empty, duties_zsend, bigSep_singleton, payload_zsend]
theorem rest_zrecv (k : Fin 3) : bigSep ((Rd (F := F) m).duties (zrecvCell c k) 0 \ ∅) (fun d => (Rd (F := F) m).payload (zrecvCell c k) 0 d) = zrecvPay m c k := by
  rw [Finset.sdiff_empty, duties_zrecv, bigSep_singleton, payload_zrecv]

end Tables

end Cert.KernelIdeal.RS

end
-- ==== Proof.Ghost.lean ====
import proofs.«901023_g7700000000001024_dist_rs_v7x_xyz2x2x2_y_m1024_n512_bf16_1_alg».proof.Proof.Sched

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

abbrev csem (i : Fin 17) : SemLoc sig := if i.val = 0 then .reg barS else .dma ⟨9 + i.val, by have := i.isLt; rw [nDma]; omega⟩
abbrev kcell (ck : Dev nD × Fin 17) : GSem nD τ sig := ((ck.1 : Thread nD τ), csem ck.2)

abbrev iB : Fin 17 := 0
abbrev iYS (k : Fin 5) : Fin 17 := ⟨1 + k.val, by omega⟩
abbrev iYR (k : Fin 5) : Fin 17 := ⟨6 + k.val, by omega⟩
abbrev iZS (k : Fin 3) : Fin 17 := ⟨11 + k.val, by omega⟩
abbrev iZR (k : Fin 3) : Fin 17 := ⟨14 + k.val, by omega⟩

theorem kcell_B (c : Dev nD) : kcell (c, iB) = barCell c := rfl
theorem kcell_YS (c : Dev nD) (k : Fin 5) : kcell (c, iYS k) = ysendCell c k := by
  show ((c : Thread nD τ), csem (iYS k)) = _; unfold csem; rw [if_neg (by show ¬ (1 + k.val = 0); omega)]
  exact congrArg _ (congrArg SemLoc.dma (Fin.ext (by show 9 + (1 + k.val) = 10 + k.val; omega)))
theorem kcell_YR (c : Dev nD) (k : Fin 5) : kcell (c, iYR k) = yrecvCell c k := by
  show ((c : Thread nD τ), csem (iYR k)) = _; unfold csem; rw [if_neg (by show ¬ (6 + k.val = 0); omega)]
  exact congrArg _ (congrArg SemLoc.dma (Fin.ext (by show 9 + (6 + k.val) = 15 + k.val; omega)))
theorem kcell_ZS (c : Dev nD) (k : Fin 3) : kcell (c, iZS k) = zsendCell c k := by
  show ((c : Thread nD τ), csem (iZS k)) = _; unfold csem; rw [if_neg (by show ¬ (11 + k.val = 0); omega)]
  exact congrArg _ (congrArg SemLoc.dma (Fin.ext (by show 9 + (11 + k.val) = 20 + k.val; omega)))
theorem kcell_ZR (c : Dev nD) (k : Fin 3) : kcell (c, iZR k) = zrecvCell c k := by
  show ((c : Thread nD τ), csem (iZR k)) = _; unfold csem; rw [if_neg (by show ¬ (14 + k.val = 0); omega)]
  exact congrArg _ (congrArg SemLoc.dma (Fin.ext (by show 9 + (14 + k.val) = 23 + k.val; omega)))

def cellKind : Unit ⊕ Fin 5 ⊕ Fin 5 ⊕ Fin 3 ⊕ Fin 3 → Fin 17 := Sum.elim (fun _ => iB) (Sum.elim iYS (Sum.elim iYR (Sum.elim iZS iZR)))
theorem cellKind_bij : Function.Bijective cellKind := by decide

theorem bigSep_cells (Φ : Fin 17 → sProp 𝕄) :
    bigSep Finset.univ Φ = iprop(Φ iB ∗ (bigSep Finset.univ fun k : Fin 5 => Φ (iYS k)) ∗ (bigSep Finset.univ fun k : Fin 5 => Φ (iYR k))
      ∗ (bigSep Finset.univ fun k : Fin 3 => Φ (iZS k)) ∗ (bigSep Finset.univ fun k : Fin 3 => Φ (iZR k))) := by
  rw [bigSep_univ_equiv (Equiv.ofBijective cellKind cellKind_bij) Φ, bigSep_univ_sum, bigSep_univ_sum, bigSep_univ_sum, bigSep_univ_sum,
    bigSep_univ_of_subsingleton ()]
  rfl

def records (K : Dev nD × Fin 17 → ℕ) : sProp 𝕄 :=
  iprop((bigSep Finset.univ fun ck : Dev nD × Fin 17 => cellInv ER (Rd m) (K ck) (kcell ck))
    ∗ bigSep Finset.univ fun ck : Dev nD × Fin 17 => reached ER (kcell ck) 0)

instance records_persistent (K : Dev nD × Fin 17 → ℕ) : BI.Persistent (records m K) := by unfold records; infer_instance

theorem inv_at' (K : Dev nD × Fin 17 → ℕ) (ck : Dev nD × Fin 17) :
    (bigSep Finset.univ fun ck : Dev nD × Fin 17 => (cellInv ER (Rd m) (K ck) (kcell ck) : sProp 𝕄)) ⊢ cellInv ER (Rd m) (K ck) (kcell ck) :=
  bigSep_elim (Finset.mem_univ ck)
theorem reached_at' (ck : Dev nD × Fin 17) :
    (bigSep Finset.univ fun ck : Dev nD × Fin 17 => (reached ER (kcell ck) 0 : sProp 𝕄)) ⊢ reached ER (kcell ck) 0 :=
  bigSep_elim (Finset.mem_univ ck)
theorem inv_at (K : Dev nD × Fin 17 → ℕ) (ck : Dev nD × Fin 17) : records m K ⊢ cellInv ER (Rd m) (K ck) (kcell ck) := by
  unfold records; iintro ⟨H, -⟩; iapply (inv_at' m K ck); iexact H
theorem reached_at (K : Dev nD × Fin 17 → ℕ) (ck : Dev nD × Fin 17) : records m K ⊢ reached ER (kcell ck) 0 := by
  unfold records; iintro ⟨-, H⟩; iapply (reached_at' (F := F) ck); iexact H

def payToks (c : Dev nD) : sProp 𝕄 :=
  iprop(dutyTok ER (barCell (yp c)) 0 false ∗ dutyTok ER (barCell (zn c)) 0 true
    ∗ (bigSep Finset.univ fun k : Fin 5 => dutyTok ER (yrecvCell (yp c) k) 0 false)
    ∗ (bigSep Finset.univ fun k : Fin 3 => dutyTok ER (zrecvCell (zn c) k) 0 false)
    ∗ (bigSep Finset.univ fun k : Fin 5 => dutyTok ER (ysendCell c k) 0 false)
    ∗ (bigSep Finset.univ fun k : Fin 3 => dutyTok ER (zsendCell c k) 0 false))

def linear (c : Dev nD) : sProp 𝕄 :=
  iprop((bigSep Finset.univ fun i : Fin 17 => atPos ER (kcell (c, i)) 0 ∅ 0) ∗ payToks c)

def creds (c : Dev nD) : sProp 𝕄 :=
  iprop(cred (tallyAt (barCell c) () 2)
    ∗ (bigSep Finset.univ fun k : Fin 5 => cred (tallyAt (yrecvCell c k) () N))
    ∗ (bigSep Finset.univ fun k : Fin 3 => cred (tallyAt (zrecvCell c k) () N)))

abbrev tY (c : Dev nD) (k : Fin 5) : CellTallies nD τ sig Unit := tallyAt (yrecvCell (yp c) k) () N
abbrev tZ (c : Dev nD) (k : Fin 3) : CellTallies nD τ sig Unit := tallyAt (zrecvCell (zn c) k) () N

def O8 (c : Dev nD) : CellTallies nD τ sig Unit := 0 + tZ c 2
def O7 (c : Dev nD) : CellTallies nD τ sig Unit := O8 c + tZ c 1

def O6 (c : Dev nD) : CellTallies nD τ sig Unit := O7 c + tZ c 0
def O5 (c : Dev nD) : CellTallies nD τ sig Unit := O6 c + tY c 4
def O4 (c : Dev nD) : CellTallies nD τ sig Unit := O5 c + tY c 3
def O3 (c : Dev nD) : CellTallies nD τ sig Unit := O4 c + tY c 2
def O2 (c : Dev nD) : CellTallies nD τ sig Unit := O3 c + tY c 1

def O1 (c : Dev nD) : CellTallies nD τ sig Unit := O2 c + tY c 0
def O0b (c : Dev nD) : CellTallies nD τ sig Unit := O1 c + tallyAt (barCell (zn c)) () 1

def O₀ (c : Dev nD) : CellTallies nD τ sig Unit := O0b c + tallyAt (barCell (yp c)) () 1

def L (g : GSem nD τ sig) : Finset Unit := if g.1.2 = .tc then {()} else ∅
def lv (g : GSem nD τ sig) (_ : Unit) : ℕ :=
  match g.2 with
  | .reg _ => 1
  | .dma j => if 15 ≤ j.val ∧ j.val < 20 then 2 else if 23 ≤ j.val then 3 else 0

theorem L_of_ne (g : GSem nD τ sig) (h : g.1.2 ≠ .tc) : L g = ∅ := if_neg h
theorem L_tc (c : Dev nD) (sm : SemLoc sig) : L ((c : Thread nD τ), sm) = {()} := if_pos rfl

def Above (b : ℕ) (O : CellTallies nD τ sig Unit) : Prop := ∀ (g : GSem nD τ sig) (u : Unit), 0 < O g u → g.1.2 = .tc ∧ b < lv g u

theorem above_zero (b : ℕ) : Above b (0 : CellTallies nD τ sig Unit) := fun g u h => absurd h (by simp)
theorem above_add {b : ℕ} {O O' : CellTallies nD τ sig Unit} (h : Above b O) (h' : Above b O') : Above b (O + O') := fun g u hg => by
  rw [Pi.add_apply, Finsupp.add_apply] at hg
  rcases Nat.eq_zero_or_pos (O g u) with h0 | h0
  · exact h' g u (by omega)
  · exact h g u h0
theorem above_tally {b : ℕ} (g : GSem nD τ sig) (n : ℕ) (hg : g.1.2 = .tc ∧ b < lv g ()) : Above b (tallyAt g () n) := fun g' u h' => by
  rw [tallyAt_apply] at h'
  by_cases h : g' = g ∧ u = ()
  · rw [h.1]; cases u; exact hg
  · rw [if_neg h] at h'; exact absurd h' (Nat.lt_irrefl 0)

theorem lv_yrecv (c : Dev nD) (k : Fin 5) : lv (yrecvCell c k) () = 2 := by
  show (if 15 ≤ 15 + k.val ∧ 15 + k.val < 20 then 2 else if 23 ≤ 15 + k.val then 3 else 0) = 2
  rw [if_pos ⟨by omega, by omega⟩]
theorem lv_zrecv (c : Dev nD) (k : Fin 3) : lv (zrecvCell c k) () = 3 := by
  show (if 15 ≤ 23 + k.val ∧ 23 + k.val < 20 then 2 else if 23 ≤ 23 + k.val then 3 else 0) = 3
  rw [if_neg (by omega), if_pos (by omega)]
theorem lv_bar (c : Dev nD) : lv (barCell c) () = 1 := rfl
theorem lv_low (c : Dev nD) (j : DmaSem sig) (hj : j.val < 15 ∨ (20 ≤ j.val ∧ j.val < 23)) : lv ((c : Thread nD τ), .dma j) () = 0 := by
  show (if 15 ≤ j.val ∧ j.val < 20 then 2 else if 23 ≤ j.val then 3 else 0) = 0
  rw [if_neg (by omega), if_neg (by omega)]

theorem above_tY (c : Dev nD) (k : Fin 5) {b : ℕ} (hb : b < 2) : Above b (tY c k) := above_tally _ _ ⟨rfl, by rw [lv_yrecv]; exact hb⟩
theorem above_tZ (c : Dev nD) (k : Fin 3) {b : ℕ} (hb : b < 3) : Above b (tZ c k) := above_tally _ _ ⟨rfl, by rw [lv_zrecv]; exact hb⟩

theorem above_O8 (c : Dev nD) {b : ℕ} (hb : b < 3) : Above b (O8 c) := above_add (above_zero b) (above_tZ c 2 hb)
theorem above_O7 (c : Dev nD) {b : ℕ} (hb : b < 3) : Above b (O7 c) := above_add (above_O8 c hb) (above_tZ c 1 hb)
theorem above_O6 (c : Dev nD) {b : ℕ} (hb : b < 3) : Above b (O6 c) := above_add (above_O7 c hb) (above_tZ c 0 hb)
theorem above_O5 (c : Dev nD) {b : ℕ} (hb : b < 2) : Above b (O5 c) := above_add (above_O6 c (by omega)) (above_tY c 4 hb)
theorem above_O4 (c : Dev nD) {b : ℕ} (hb : b < 2) : Above b (O4 c) := above_add (above_O5 c hb) (above_tY c 3 hb)
theorem above_O3 (c : Dev nD) {b : ℕ} (hb : b < 2) : Above b (O3 c) := above_add (above_O4 c hb) (above_tY c 2 hb)
theorem above_O2 (c : Dev nD) {b : ℕ} (hb : b < 2) : Above b (O2 c) := above_add (above_O3 c hb) (above_tY c 1 hb)
theorem above_O1 (c : Dev nD) {b : ℕ} (hb : b < 2) : Above b (O1 c) := above_add (above_O2 c hb) (above_tY c 0 hb)
theorem mayWait_cut (c : Dev nD) (sm : SemLoc sig) (O : CellTallies nD τ sig Unit) (b : ℕ)
    (hsm : lv ((c : Thread nD τ), sm) () ≤ b) (hO : Above b O) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by
      have h := (hO g u hg).1
      obtain ⟨⟨d, kd⟩, sm'⟩ := g
      cases u
      change kd = .tc at h; subst h
      exact Finset.mem_singleton_self _)
    (fun p hp => by rw [Finset.mem_singleton.mp hp]; exact hsm)
    (fun g u hg => (hO g u hg).2)

def scr (c : Dev nD) (b : Ref sig .tc) : sProp 𝕄 := iprop(∃ f, (Memref.whole b).view.loc (c : Thread nD τ) ↦{fullShare} f)

def localSems (c : Dev nD) : sProp 𝕄 :=
  bigSep Finset.univ fun j : Fin 10 => semVal ((c : Thread nD τ), SemLoc.dma (⟨j.val, by have := j.isLt; rw [nDma]; omega⟩ : DmaSem sig)) 0

def start (c : Dev nD) : sProp 𝕄 :=
  iprop((∃ K, records m K ∗ linear c) ∗ creds c ∗ levAts L lv ∗ localSems c
    ∗ ((Memref.whole main_arg0).view.loc (c : Thread nD τ) ↦{fullShare} m ((c : Thread nD τ).loc main_arg0))
    ∗ ((Memref.whole main_v1).view.loc (c : Thread nD τ) ↦{fullShare} m ((c : Thread nD τ).loc main_v1)))

def Φ₀ (c : Dev nD) : sProp 𝕄 :=
  iprop(start m c ∗ scr c cc0_scratch0 ∗ scr c cc0_scratch1 ∗ scr c cc0_scratch2 ∗ scr c cc0_scratch3)

abbrev sumOf (c : Dev nD) (k : ℕ) : ℕ → ℕ → F .bf16 := sumG (X m c) (sendG (X m (yp c)) (yp c) k) c k

def rowsDone (c d : Dev nD) (k : Fin 4) (g : ℕ → ℕ → F .bf16) : sProp 𝕄 :=
  iprop(∃ f, rowsPts c (outSl d k) f ∗ ⌜RowsAre f (rowOf d k.val) g⌝)

def rowsDoneX (c : Dev nD) (g : ℕ → ℕ → F .bf16) : sProp 𝕄 :=
  iprop(∃ f, rowsPts c (outSlX c) f ∗ ⌜RowsAre f (rowOf c 4) g⌝)

def outDone (c : Dev nD) : sProp 𝕄 :=
  iprop(rowsDone c c 0 (sumOf m c 0) ∗ rowsDone c c 1 (sumOf m c 1) ∗ rowsDone c c 2 (sumOf m c 2) ∗ rowsDone c c 3 (sumOf m c 3)
    ∗ rowsDoneX c (sumOf m c 4)
    ∗ rowsDone c (zn c) 0 (sumOf m (zn c) 0) ∗ rowsDone c (zn c) 1 (sumOf m (zn c) 1) ∗ rowsDone c (zn c) 2 (sumOf m (zn c) 2))

def Φ₁ (c : Dev nD) : sProp 𝕄 :=
  iprop((bigSep Finset.univ fun j : DmaSem sig => semVal ((c : Thread nD τ), SemLoc.dma j) 0)
    ∗ scr c cc0_scratch0 ∗ scr c cc0_scratch1 ∗ scr c cc0_scratch2 ∗ scr c cc0_scratch3
    ∗ ((Memref.whole main_arg0).view.loc (c : Thread nD τ) ↦{fullShare} m ((c : Thread nD τ).loc main_arg0))
    ∗ outDone m c)

def OutSpec (c : Dev nD) (f : S1024x512.Idx → F .bf16) : Prop :=
  (∀ k : Fin 5, RowsAre f (rowOf c k.val) (sumOf m c k.val)) ∧ (∀ k : Fin 3, RowsAre f (rowOf (zn c) k.val) (sumOf m (zn c) k.val))

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.RS

end
-- ==== Proof.Mid.lean ====
import proofs.«901023_g7700000000001024_dist_rs_v7x_xyz2x2x2_y_m1024_n512_bf16_1_alg».proof.Proof.Ghost

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

abbrev std.{u} {β : Sort u} (f : ∀ (arg0 : Memref sig .tc .hbm S1x1024x1024 .f32) (harg0 : arg0.IsWhole) (arg1 : Memref sig .tc .hbm S1024x512 .bf16) (harg1 : arg1.IsWhole) (arg2 : Memref sig .tc .vmem S5x128x1024 .f32) (harg2 : arg2.IsWhole) (arg3 : Memref sig .tc .vmem S5x128x512 .bf16) (harg3 : arg3.IsWhole) (arg4 : Memref sig .tc .vmem S5x128x512 .bf16) (harg4 : arg4.IsWhole) (arg5 : Memref sig .tc .vmem S5x128x512 .bf16) (harg5 : arg5.IsWhole) (arg6 : DmaSems sig S5) (arg7 : DmaSems sig S5) (arg8 : DmaSems sig S5) (arg9 : DmaSems sig S5) (arg10 : DmaSems sig S3) (arg11 : DmaSems sig S3), β) : β :=
  f (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9

def tailE (d0 : Dev nD) (v2 v5 v8 v9 v10 v11 v13 v14 : BitVec 32) : Prog (TpuEff nD τ sig (Elt F) Λ₀ .tc) PUnit := do
  std k0_part15 d0
  std k0_part16 d0 v2 v5 v10
  let v464 : Memref sig .tc .vmem S1x128x512 .bf16 := (Memref.whole cc0_scratch3).slice (Rect.unit (s := S5x128x512) ![1, 0, 0] S1x128x512.size inb_S5x128x512_S1x128x512_1_0_0) (fun _ => rfl)
  let v465 : Memref sig .tc .vmem S128x512 .bf16 := v464.squeeze S128x512 squeezes_S1x128x512_S128x512
  let v461 : DmaSems sig S1 := cc0_scratch9.slice (Rect.unit (s := S3) ![1] S1.size inb_S3_S1_1)
  let v462 : DmaSems sig S_ := v461.squeeze S_ squeezes_S1_S_
  let v463 : Memref sig .tc .hbm S128x512 .bf16 := (Memref.whole main_v1).slice (Rect.unit (s := S1024x512) (k0_off9 d0 128#32) S128x512.size (k0_off9_inb d0 1)) (fun _ => rfl)
  Prog.lift (.waitDma2 v462.sem v465 v463 (((Memref.isWhole_whole cc0_scratch3).wordExact_slice rfl _ wordsbf16_S5x128x512_S1x128x512_1_0_0).reshape _ _) ((Memref.isWhole_whole main_v1).wordExact_slice rfl _ (k0_off9_wordsbf16 d0 1)))
  let v466 : DmaSems sig S1 := cc0_scratch8.slice (Rect.unit (s := S3) ![2] S1.size inb_S3_S1_2)
  let v467 : DmaSems sig S_ := v466.squeeze S_ squeezes_S1_S_
  let v468 : Memref sig .tc .vmem S1x128x512 .bf16 := (Memref.whole cc0_scratch3).slice (Rect.unit (s := S5x128x512) ![2, 0, 0] S1x128x512.size inb_S5x128x512_S1x128x512_2_0_0) (fun _ => rfl)
  let v469 : Memref sig .tc .vmem S128x512 .bf16 := v468.squeeze S128x512 squeezes_S1x128x512_S128x512
  let v470 : Memref sig .tc .hbm S128x512 .bf16 := (Memref.whole main_v1).slice (Rect.unit (s := S1024x512) (k0_off9 d0 256#32) S128x512.size (k0_off9_inb d0 2)) (fun _ => rfl)
  Prog.lift (.waitDma2 v467.sem v470 v469 ((Memref.isWhole_whole main_v1).wordExact_slice rfl _ (k0_off9_wordsbf16 d0 2)) (((Memref.isWhole_whole cc0_scratch3).wordExact_slice rfl _ wordsbf16_S5x128x512_S1x128x512_2_0_0).reshape _ _))
  let v477 : DmaSems sig S1 := cc0_scratch9.slice (Rect.unit (s := S3) ![2] S1.size inb_S3_S1_2)
  let v478 : DmaSems sig S_ := v477.squeeze S_ squeezes_S1_S_
  let v479 : Memref sig .tc .hbm S128x512 .bf16 := (Memref.whole main_v1).slice (Rect.unit (s := S1024x512) (k0_off9 d0 256#32) S128x512.size (k0_off9_inb d0 2)) (fun _ => rfl)
  let v480 : Memref sig .tc .vmem S1x128x512 .bf16 := (Memref.whole cc0_scratch3).slice (Rect.unit (s := S5x128x512) ![2, 0, 0] S1x128x512.size inb_S5x128x512_S1x128x512_2_0_0) (fun _ => rfl)
  let v481 : Memref sig .tc .vmem S128x512 .bf16 := v480.squeeze S128x512 squeezes_S1x128x512_S128x512
  Prog.lift (.waitDma2 v478.sem v481 v479 (((Memref.isWhole_whole cc0_scratch3).wordExact_slice rfl _ wordsbf16_S5x128x512_S1x128x512_2_0_0).reshape _ _) ((Memref.isWhole_whole main_v1).wordExact_slice rfl _ (k0_off9_wordsbf16 d0 2)))
  pure ⟨⟩

def tailD (d0 : Dev nD) (v2 v5 v8 v9 v10 v11 v13 v14 : BitVec 32) : Prog (TpuEff nD τ sig (Elt F) Λ₀ .tc) PUnit := do
  let c4_i32_284 : BitVec 32 ← std k0_part11 d0 v2 v8 v9 v11 v14
  let ⟨v350, v351⟩ : Σ' (v350 : BitVec 32), BitVec 32 ← std k0_part12 d0 v2 v5 v8 v9 v10 c4_i32_284
  std k0_part13 d0 v11 v14 v350 v351
  std k0_part14 d0 v2 v8 v9 v13 v14
  tailE d0 v2 v5 v8 v9 v10 v11 v13 v14

def tailCD (d0 : Dev nD) (v2 v5 v8 v9 v10 v11 v13 v14 : BitVec 32) : Prog (TpuEff nD τ sig (Elt F) Λ₀ .tc) PUnit := do
  std k0_part8 d0 v2 v5 v8 v9 v10 v11 v14
  std k0_part9 d0 v2 v8 v9 v11
  std k0_part10 d0 v2 v5 v10 v14
  tailD d0 v2 v5 v8 v9 v10 v11 v13 v14

def stBC (K : Dev nD × Fin 17 → ℕ) (c : Dev nD) : sProp 𝕄 :=
  iprop(records m K ∗ levAts L lv
    ∗ (∃ W, owes (c : Thread nD τ) (O6 c) W)
    ∗ ((Memref.whole main_arg0).view.loc (c : Thread nD τ) ↦{fullShare} m ((c : Thread nD τ).loc main_arg0))
    ∗ (∃ fI, ((Memref.whole cc0_scratch0).view.loc (c : Thread nD τ) ↦{fullShare} fI) ∗ ⌜∀ k : Fin 5, SlotInIs fI k (inG (X m c) c k.val)⌝)
    ∗ (∃ f, slotPts sendY fullShare c 0 f)
    ∗ ((∃ f, slotPts sumB fullShare c 0 f) ∗ (∃ f, slotPts sumB fullShare c 1 f) ∗ (∃ f, slotPts sumB fullShare c 2 f)
        ∗ (∃ f, slotPts sumB fullShare c 3 f) ∗ (∃ f, slotPts sumB fullShare c 4 f))
    ∗ ((∃ f, rowsPts c (outSl c 0) f) ∗ (∃ f, rowsPts c (outSl c 1) f) ∗ (∃ f, rowsPts c (outSl c 2) f) ∗ (∃ f, rowsPts c (outSl c 3) f)
        ∗ (∃ f, rowsPts c (outSlX c) f))
    ∗ barPayZ c
    ∗ localSems c
    ∗ atPos ER (barCell c) 1 ∅ 0 ∗ atPos ER (ysendCell c 0) 1 ∅ 0
    ∗ (atPos ER (ysendCell c 1) 0 ∅ 0 ∗ atPos ER (ysendCell c 2) 0 ∅ 0 ∗ atPos ER (ysendCell c 3) 0 ∅ 0 ∗ atPos ER (ysendCell c 4) 0 ∅ 0)
    ∗ (bigSep Finset.univ fun k : Fin 5 => atPos ER (yrecvCell c k) 0 ∅ 0)
    ∗ (bigSep Finset.univ fun k : Fin 3 => atPos ER (zsendCell c k) 0 ∅ 0)
    ∗ (bigSep Finset.univ fun k : Fin 3 => atPos ER (zrecvCell c k) 0 ∅ 0)
    ∗ (cred (tallyAt (ysendCell c 1) () N) ∗ cred (tallyAt (ysendCell c 2) () N) ∗ cred (tallyAt (ysendCell c 3) () N) ∗ cred (tallyAt (ysendCell c 4) () N))
    ∗ (bigSep Finset.univ fun k : Fin 5 => cred (tallyAt (yrecvCell c k) () N))
    ∗ (bigSep Finset.univ fun k : Fin 3 => cred (tallyAt (zrecvCell c k) () N))
    ∗ (bigSep Finset.univ fun k : Fin 3 => dutyTok ER (zrecvCell (zn c) k) 0 false)
    ∗ (bigSep Finset.univ fun k : Fin 3 => dutyTok ER (zsendCell c k) 0 false))
abbrev lsem (c : Dev nD) (j : DmaSem sig) : GSem nD τ sig := ((c : Thread nD τ), .dma j)

abbrev wz (c : Dev nD) : BitVec 32 := Scalar.remsi (Scalar.divsi (Dev.word c) 1#32) 2#32
abbrev wy (c : Dev nD) : BitVec 32 := Scalar.remsi (Scalar.divsi (Dev.word c) 2#32) 2#32
abbrev wx (c : Dev nD) : BitVec 32 := Scalar.remsi (Scalar.divsi (Dev.word c) 4#32) 2#32

def preAB (K : Dev nD × Fin 17 → ℕ) (c : Dev nD) : sProp 𝕄 :=
  iprop(records m K ∗ levAts L lv
    ∗ (∃ W, owes (c : Thread nD τ) (O₀ c) W)
    ∗ dutyTok ER (barCell (yp c)) 0 false ∗ dutyTok ER (barCell (zn c)) 0 true
    ∗ (dutyTok ER (yrecvCell (yp c) 0) 0 false ∗ dutyTok ER (yrecvCell (yp c) 1) 0 false ∗ dutyTok ER (yrecvCell (yp c) 2) 0 false
        ∗ dutyTok ER (yrecvCell (yp c) 3) 0 false ∗ dutyTok ER (yrecvCell (yp c) 4) 0 false)
    ∗ (dutyTok ER (ysendCell c 0) 0 false ∗ dutyTok ER (ysendCell c 1) 0 false ∗ dutyTok ER (ysendCell c 2) 0 false
        ∗ dutyTok ER (ysendCell c 3) 0 false ∗ dutyTok ER (ysendCell c 4) 0 false)
    ∗ atPos ER (barCell c) 0 ∅ 0
    ∗ (atPos ER (ysendCell c 0) 0 ∅ 0 ∗ atPos ER (ysendCell c 1) 0 ∅ 0 ∗ atPos ER (ysendCell c 2) 0 ∅ 0
        ∗ atPos ER (ysendCell c 3) 0 ∅ 0 ∗ atPos ER (ysendCell c 4) 0 ∅ 0)
    ∗ cred (tallyAt (barCell c) () 2)
    ∗ (semVal (lsem c (dsemL 0)) 0 ∗ semVal (lsem c (dsemL 1)) 0 ∗ semVal (lsem c (dsemL 2)) 0 ∗ semVal (lsem c (dsemL 3)) 0 ∗ semVal (lsem c (dsemL 4)) 0)
    ∗ ((Memref.whole main_arg0).view.loc (c : Thread nD τ) ↦{fullShare} m ((c : Thread nD τ).loc main_arg0))
    ∗ (∃ fI, (Memref.whole cc0_scratch0).view.loc (c : Thread nD τ) ↦{fullShare} fI)
    ∗ ((∃ f, slotPts sendY fullShare c 0 f) ∗ (∃ f, slotPts sendY fullShare c 1 f) ∗ (∃ f, slotPts sendY fullShare c 2 f)
        ∗ (∃ f, slotPts sendY fullShare c 3 f) ∗ (∃ f, slotPts sendY fullShare c 4 f))
    ∗ barPayY (yp c) ∗ barPayZ (zn c))

def midAB (K : Dev nD × Fin 17 → ℕ) (c : Dev nD) : sProp 𝕄 :=
  iprop((∃ W, owes (c : Thread nD τ) (O6 c) W)
    ∗ ((Memref.whole main_arg0).view.loc (c : Thread nD τ) ↦{fullShare} m ((c : Thread nD τ).loc main_arg0))
    ∗ (∃ fI, ((Memref.whole cc0_scratch0).view.loc (c : Thread nD τ) ↦{fullShare} fI) ∗ ⌜∀ k : Fin 5, SlotInIs fI k (inG (X m c) c k.val)⌝)
    ∗ (∃ f, slotPts sendY fullShare c 0 f)
    ∗ barPayZ c
    ∗ (semVal (lsem c (dsemL 0)) 0 ∗ semVal (lsem c (dsemL 1)) 0 ∗ semVal (lsem c (dsemL 2)) 0 ∗ semVal (lsem c (dsemL 3)) 0 ∗ semVal (lsem c (dsemL 4)) 0)
    ∗ atPos ER (barCell c) 1 ∅ 0 ∗ atPos ER (ysendCell c 0) 1 ∅ 0
    ∗ (atPos ER (ysendCell c 1) 0 ∅ 0 ∗ atPos ER (ysendCell c 2) 0 ∅ 0 ∗ atPos ER (ysendCell c 3) 0 ∅ 0 ∗ atPos ER (ysendCell c 4) 0 ∅ 0)
    ∗ (cred (tallyAt (ysendCell c 1) () N) ∗ cred (tallyAt (ysendCell c 2) () N) ∗ cred (tallyAt (ysendCell c 3) () N) ∗ cred (tallyAt (ysendCell c 4) () N)))

def passAB (c : Dev nD) : sProp 𝕄 :=
  iprop(((∃ f, slotPts sumB fullShare c 0 f) ∗ (∃ f, slotPts sumB fullShare c 1 f) ∗ (∃ f, slotPts sumB fullShare c 2 f)
        ∗ (∃ f, slotPts sumB fullShare c 3 f) ∗ (∃ f, slotPts sumB fullShare c 4 f))
    ∗ ((∃ f, rowsPts c (outSl c 0) f) ∗ (∃ f, rowsPts c (outSl c 1) f) ∗ (∃ f, rowsPts c (outSl c 2) f) ∗ (∃ f, rowsPts c (outSl c 3) f)
        ∗ (∃ f, rowsPts c (outSlX c) f))
    ∗ (semVal (lsem c (osemL 0)) 0 ∗ semVal (lsem c (osemL 1)) 0 ∗ semVal (lsem c (osemL 2)) 0 ∗ semVal (lsem c (osemL 3)) 0 ∗ semVal (lsem c (osemL 4)) 0)
    ∗ (bigSep Finset.univ fun k : Fin 5 => atPos ER (yrecvCell c k) 0 ∅ 0)
    ∗ (bigSep Finset.univ fun k : Fin 3 => atPos ER (zsendCell c k) 0 ∅ 0)
    ∗ (bigSep Finset.univ fun k : Fin 3 => atPos ER (zrecvCell c k) 0 ∅ 0)
    ∗ (bigSep Finset.univ fun k : Fin 5 => cred (tallyAt (yrecvCell c k) () N))
    ∗ (bigSep Finset.univ fun k : Fin 3 => cred (tallyAt (zrecvCell c k) () N))
    ∗ (bigSep Finset.univ fun k : Fin 3 => dutyTok ER (zrecvCell (zn c) k) 0 false)
    ∗ (bigSep Finset.univ fun k : Fin 3 => dutyTok ER (zsendCell c k) 0 false))

end Cert.KernelIdeal.RS

end
-- ==== Proof.ViewIdx.lean ====
import proofs.«901023_g7700000000001024_dist_rs_v7x_xyz2x2x2_y_m1024_n512_bf16_1_alg».proof.Proof.Vals
import Idealize.ShloMosaic.Lib.ValueLayout

noncomputable section

namespace Cert.KernelIdeal.RS

open Cert.KernelIdeal Cert.KernelIdeal.Gen
open Idealize.ShloMosaic
open Idealize.ShloMosaic.TcCoe

open Idealize.ShloMosaic.ValueIdx

variable {F : FTy → Type} [FloatOps F]

theorem pay1_apply (v : Vec F S1x128x512 .f32) (r : Fin 128) (j : Fin 512) :
    k0_pay1 v (ix3 (0 : Fin 1) r j) = T (v (ix3 (0 : Fin 1) r j)) := by
  show shapeCast S1x128x512 (truncf .bf16 (shapeCast S128x512 v shapeCasts_S1x128x512_S128x512) bitsLt_bf16_f32)
      shapeCasts_S128x512_S1x128x512 (ix3 (0 : Fin 1) r j) = _
  rw [shapeCast_ab_1ab_apply]
  show FloatOps.truncf .bf16 bitsLt_bf16_f32 (shapeCast S128x512 v shapeCasts_S1x128x512_S128x512 (ix2 r j)) = _
  rw [shapeCast_1ab_ab_apply]
  rfl

theorem pay2_eq : k0_pay2 (F := F) = k0_pay1 := rfl
theorem pay3_eq : k0_pay3 (F := F) = k0_pay1 := rfl
theorem pay4_eq : k0_pay4 (F := F) = k0_pay1 := rfl
theorem pay5_eq : k0_pay5 (F := F) = k0_pay1 := rfl

theorem pay6_apply (v : Vec F S1x128x512 .f32) (w : Vec F S1x128x512 .bf16) (r : Fin 128) (j : Fin 512) :
    k0_pay6 v w (ix3 (0 : Fin 1) r j) = FloatOps.addf (T (v (ix3 (0 : Fin 1) r j))) (w (ix3 (0 : Fin 1) r j)) := by
  show shapeCast S1x128x512
      (addf (truncf .bf16 (shapeCast S128x512 v shapeCasts_S1x128x512_S128x512) bitsLt_bf16_f32)
        (shapeCast S128x512 w shapeCasts_S1x128x512_S128x512))
      shapeCasts_S128x512_S1x128x512 (ix3 (0 : Fin 1) r j) = _
  rw [shapeCast_ab_1ab_apply]
  show FloatOps.addf (FloatOps.truncf .bf16 bitsLt_bf16_f32 (shapeCast S128x512 v shapeCasts_S1x128x512_S128x512 (ix2 r j)))
      (shapeCast S128x512 w shapeCasts_S1x128x512_S128x512 (ix2 r j)) = _
  rw [shapeCast_1ab_ab_apply, shapeCast_1ab_ab_apply]
  rfl

theorem pay7_eq : k0_pay7 (F := F) = k0_pay6 := rfl
theorem pay8_eq : k0_pay8 (F := F) = k0_pay6 := rfl
theorem pay9_eq : k0_pay9 (F := F) = k0_pay6 := rfl
theorem pay10_eq : k0_pay10 (F := F) = k0_pay6 := rfl

theorem unit_idx_ix3 {n0 n1 n2 m0 m1 m2 : ℕ} (off : Fin 3 → ℕ)
    (inb : ∀ a, off a + (![m0, m1, m2] : Fin 3 → ℕ) a ≤ (⟨3, ![n0, n1, n2]⟩ : Shape).size a)
    (x : Fin m0) (y : Fin m1) (z : Fin m2) (x' : Fin n0) (y' : Fin n1) (z' : Fin n2)
    (hx : x'.val = off 0 + x.val) (hy : y'.val = off 1 + y.val) (hz : z'.val = off 2 + z.val) :
    (Rect.unit (s := ⟨3, ![n0, n1, n2]⟩) off ![m0, m1, m2] inb).emb (ix3 x y z) = ix3 x' y' z' := by
  funext a
  refine Fin.ext ?_
  rw [Rect.emb_apply]
  match a with
  | ⟨0, _⟩ => show off 0 + 1 * x.val = x'.val; omega
  | ⟨1, _⟩ => show off 1 + 1 * y.val = y'.val; omega
  | ⟨2, _⟩ => show off 2 + 1 * z.val = z'.val; omega

theorem unit_idx_ix2 {n0 n1 m0 m1 : ℕ} (off : Fin 2 → ℕ)
    (inb : ∀ a, off a + (![m0, m1] : Fin 2 → ℕ) a ≤ (⟨2, ![n0, n1]⟩ : Shape).size a)
    (x : Fin m0) (y : Fin m1) (x' : Fin n0) (y' : Fin n1)
    (hx : x'.val = off 0 + x.val) (hy : y'.val = off 1 + y.val) :
    (Rect.unit (s := ⟨2, ![n0, n1]⟩) off ![m0, m1] inb).emb (ix2 x y) = ix2 x' y' := by
  funext a
  refine Fin.ext ?_
  rw [Rect.emb_apply]
  match a with
  | ⟨0, _⟩ => show off 0 + 1 * x.val = x'.val; omega
  | ⟨1, _⟩ => show off 1 + 1 * y.val = y'.val; omega

theorem rect_slot_idx (off : Fin 3 → ℕ) (inb : ∀ a, off a + S1x128x512.size a ≤ S5x128x512.size a) (k : Fin 5)
    (hoff : off = ![k.val, 0, 0]) (u : Fin 1) (r : Fin 128) (j : Fin 512) :
    (Rect.unit (s := S5x128x512) off S1x128x512.size inb).emb (ix3 u r j) = ix3 k r j := by
  subst hoff
  exact unit_idx_ix3 _ inb u r j k r j (by show k.val = k.val + u.val; omega) (by show r.val = 0 + r.val; omega)
    (by show j.val = 0 + j.val; omega)

theorem slot_idx (k : Fin 5) (r : Fin 128) (j : Fin 512) :
    (Rect.unit (s := S5x128x512) ![k.val, 0, 0] S1x128x512.size (inb_slot k)).emb
        (Shape.reshapeEquiv squeezes_S1x128x512_S128x512.numel_eq (ix2 r j)) = ix3 k r j := by
  rw [reshapeEquiv_ix2_1ab]
  exact rect_slot_idx _ _ k rfl _ r j

theorem load_in (off : Fin 3 → ℕ) (inb : ∀ a, off a + S1x128x512.size a ≤ S5x128x1024.size a) (k : Fin 5) (col : ℕ)
    (hoff : off = ![k.val, 0, col]) (f : S5x128x1024.Idx → F .f32) (r : Fin 128) (j : Fin 512) :
    View.readAt (Elt F) (Memref.whole cc0_scratch0).view (Rect.unit (s := S5x128x1024) off S1x128x512.size inb).toLoadRect f
        (ix3 (0 : Fin 1) r j)
      = f (ix3 k r (fin1024 (col + j.val))) := by
  subst hoff
  have hc : col + 512 ≤ 1024 := inb 2
  have hj := j.isLt
  show f ((Rect.unit (s := S5x128x1024) ![k.val, 0, col] S1x128x512.size inb).emb (ix3 (0 : Fin 1) r j)) = _
  rw [unit_idx_ix3 _ inb (0 : Fin 1) r j k r (fin1024 (col + j.val)) (by show k.val = k.val + 0; omega)
    (by show r.val = 0 + r.val; omega) (by rw [fin1024_val _ (by omega)]; rfl)]

theorem load_slot_recv (off : Fin 3 → ℕ) (inb : ∀ a, off a + S1x128x512.size a ≤ S5x128x512.size a) (k : Fin 5)
    (hoff : off = ![k.val, 0, 0]) (f : S5x128x512.Idx → F .bf16) (r : Fin 128) (j : Fin 512) :
    View.readAt (Elt F) (Memref.whole cc0_scratch2).view (Rect.unit (s := S5x128x512) off S1x128x512.size inb).toLoadRect f
        (ix3 (0 : Fin 1) r j) = f (ix3 k r j) :=
  congrArg f (rect_slot_idx off inb k hoff 0 r j)

theorem store_slot_send (off : Fin 3 → ℕ) (inb : ∀ a, off a + S1x128x512.size a ≤ S5x128x512.size a) (k : Fin 5)
    (hoff : off = ![k.val, 0, 0]) (f : S5x128x512.Idx → F .bf16) (pay : S1x128x512.Idx → F .bf16) (r : Fin 128) (j : Fin 512) :
    View.write (Elt F) ((Memref.whole cc0_scratch1).access (Rect.unit (s := S5x128x512) off S1x128x512.size inb)) f pay Finset.univ
        (ix3 k r j) = pay (ix3 (0 : Fin 1) r j) := by
  rw [← rect_slot_idx off inb k hoff 0 r j]
  exact View.write_emb_of_mem (Val := Elt F) (v := (Memref.whole cc0_scratch1).access (Rect.unit (s := S5x128x512) off S1x128x512.size inb))
    f pay (Finset.mem_univ (ix3 (0 : Fin 1) r j))

theorem store_slot_sum (off : Fin 3 → ℕ) (inb : ∀ a, off a + S1x128x512.size a ≤ S5x128x512.size a) (k : Fin 5)
    (hoff : off = ![k.val, 0, 0]) (f : S5x128x512.Idx → F .bf16) (pay : S1x128x512.Idx → F .bf16) (r : Fin 128) (j : Fin 512) :
    View.write (Elt F) ((Memref.whole cc0_scratch3).access (Rect.unit (s := S5x128x512) off S1x128x512.size inb)) f pay Finset.univ
        (ix3 k r j) = pay (ix3 (0 : Fin 1) r j) := by
  rw [← rect_slot_idx off inb k hoff 0 r j]
  exact View.write_emb_of_mem (Val := Elt F) (v := (Memref.whole cc0_scratch3).access (Rect.unit (s := S5x128x512) off S1x128x512.size inb))
    f pay (Finset.mem_univ (ix3 (0 : Fin 1) r j))

theorem read_slot_send (k : Fin 5) (f : S5x128x512.Idx → F .bf16) (r : Fin 128) (j : Fin 512) :
    (slot sendY k).view.read (Elt F) f (ix2 r j) = f (ix3 k r j) := congrArg f (slot_idx k r j)
theorem read_slot_sum (k : Fin 5) (f : S5x128x512.Idx → F .bf16) (r : Fin 128) (j : Fin 512) :
    (slot sumB k).view.read (Elt F) f (ix2 r j) = f (ix3 k r j) := congrArg f (slot_idx k r j)

theorem write_slot_recv (k : Fin 5) (fd : S5x128x512.Idx → F .bf16) (v : S128x512.Idx → F .bf16) (r : Fin 128) (j : Fin 512) :
    (slot recvY k).view.write (Elt F) fd v Finset.univ (ix3 k r j) = v (ix2 r j) := by
  rw [← slot_idx k r j]
  exact View.write_emb_of_mem (Val := Elt F) (v := (slot recvY k).view) fd v (Finset.mem_univ (ix2 r j))
end Cert.KernelIdeal.RS

end
-- ==== Proof.Rules.lean ====
import proofs.«901023_g7700000000001024_dist_rs_v7x_xyz2x2x2_y_m1024_n512_bf16_1_alg».proof.Proof.Ghost
import proofs.«901023_g7700000000001024_dist_rs_v7x_xyz2x2x2_y_m1024_n512_bf16_1_alg».proof.Proof.ViewIdx

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

theorem inv_B (K : Dev nD × Fin 17 → ℕ) (c : Dev nD) : records m K ⊢ cellInv ER (Rd m) (K (c, iB)) (barCell c) := inv_at m K (c, iB)
theorem reached_B (K : Dev nD × Fin 17 → ℕ) (c : Dev nD) : records m K ⊢ reached ER (barCell c) 0 := reached_at m K (c, iB)
theorem inv_YS (K : Dev nD × Fin 17 → ℕ) (c : Dev nD) (k : Fin 5) : records m K ⊢ cellInv ER (Rd m) (K (c, iYS k)) (ysendCell c k) := by
  rw [← kcell_YS]; exact inv_at m K (c, iYS k)
theorem reached_YS (K : Dev nD × Fin 17 → ℕ) (c : Dev nD) (k : Fin 5) : records m K ⊢ reached ER (ysendCell c k) 0 := by
  rw [← kcell_YS]; exact reached_at m K (c, iYS k)
theorem inv_YR (K : Dev nD × Fin 17 → ℕ) (c : Dev nD) (k : Fin 5) : records m K ⊢ cellInv ER (Rd m) (K (c, iYR k)) (yrecvCell c k) := by
  rw [← kcell_YR]; exact inv_at m K (c, iYR k)
theorem reached_YR (K : Dev nD × Fin 17 → ℕ) (c : Dev nD) (k : Fin 5) : records m K ⊢ reached ER (yrecvCell c k) 0 := by
  rw [← kcell_YR]; exact reached_at m K (c, iYR k)
theorem inv_ZS (K : Dev nD × Fin 17 → ℕ) (c : Dev nD) (k : Fin 3) : records m K ⊢ cellInv ER (Rd m) (K (c, iZS k)) (zsendCell c k) := by
  rw [← kcell_ZS]; exact inv_at m K (c, iZS k)
theorem reached_ZS (K : Dev nD × Fin 17 → ℕ) (c : Dev nD) (k : Fin 3) : records m K ⊢ reached ER (zsendCell c k) 0 := by
  rw [← kcell_ZS]; exact reached_at m K (c, iZS k)
theorem inv_ZR (K : Dev nD × Fin 17 → ℕ) (c : Dev nD) (k : Fin 3) : records m K ⊢ cellInv ER (Rd m) (K (c, iZR k)) (zrecvCell c k) := by
  rw [← kcell_ZR]; exact inv_at m K (c, iZR k)
theorem reached_ZR (K : Dev nD × Fin 17 → ℕ) (c : Dev nD) (k : Fin 3) : records m K ⊢ reached ER (zrecvCell c k) 0 := by
  rw [← kcell_ZR]; exact reached_at m K (c, iZR k)

theorem wp_sendY (K : Dev nD × Fin 17 → ℕ) (c n : Dev nD) (hn : n = yp c) (k : Fin 5)
    {hsc : (slot recvY k : Memref sig (Dev.tc n : Thread nD τ).2.kind .vmem S128x512 .bf16).view.ref.isScScratch = false}
    {hsrc : (slot sendY k).view.WordExact} {hdst : (slot recvY k).view.WordExact}
    {hsem : DmaTarget.Typed .vmem (.dma (yrecvL k)) (.remote (Dev.tc n : Thread nD τ) (slot recvY k) (.dma (ysendL k)) hsc)}
    {α : Type} {Q : α → sProp 𝕄} {kont : PUnit → Prog (TpuEff nD τ sig (Elt F) Λ₀ .tc) α}
    (fs : Buf (Elt F) ((slot sendY k).view.loc (c : Thread nD τ))) (fd : Buf (Elt F) ((slot recvY k).view.loc (yp c : Thread nD τ)))
    (hfs : SlotIs fs k (sendG (X m c) c k.val))
    (O : CellTallies nD τ sig Unit) (W : Waits sig Unit) :
    iprop(cellInv ER (Rd m) (K (c, iYS k)) (ysendCell c k) ∗ cellInv ER (Rd m) (K (yp c, iYR k)) (yrecvCell (yp c) k)
        ∗ slotPts sendY fullShare c k fs ∗ slotPts recvY fullShare (yp c) k fd
        ∗ owes (c : Thread nD τ) (O + tY c k) W
        ∗ dutyTok ER (ysendCell c k) 0 false ∗ reached ER (ysendCell c k) 0
        ∗ dutyTok ER (yrecvCell (yp c) k) 0 false ∗ reached ER (yrecvCell (yp c) k) 0)
      ⊢ iprop(((cred (tallyAt (ysendCell c k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (slot sendY k) (.remote (Dev.tc n : Thread nD τ) (slot recvY k) (.dma (ysendL k)) hsc) (.dma (yrecvL k)) hsrc hdst hsem) kont) Q) := by
  subst hn
  exact Rounds.wp_send_pointsTo 𝒱₀ ER (Rd m) (c : Thread nD τ) none (κ₁ := K (c, iYS k)) (κ₂ := K (yp c, iYR k))
    (r₁ := 0) (r₂ := 0) (d₁ := false) (d₂ := false) (fs := fs) (fd := fd)
    (by rw [duties_ysend]; exact Finset.mem_singleton_self _) (by rw [duties_yrecv]; exact Finset.mem_singleton_self _)
    () () N rfl (amount_dma m c _ false) (amount_dma m (yp c) _ false) O rfl (W := W)
    (by rw [payload_ysend]; unfold ysendPay; iintro H; iexists fs; iexact H)
    (by
      rw [payload_yrecv]; unfold yrecvPay
      iintro H
      iexists _
      isplitl [H]; · iexact H
      ipureintro
      intro r j
      rw [yp_yp, write_slot_recv, read_slot_send]
      exact hfs r j)

end Cert.KernelIdeal.RS

end
-- ==== Proof.Disj.lean ====
import proofs.«901023_g7700000000001024_dist_rs_v7x_xyz2x2x2_y_m1024_n512_bf16_1_alg».proof.Proof.Proto

noncomputable section

namespace Cert.KernelIdeal.RS

open Cert.KernelIdeal Cert.KernelIdeal.Gen
open Idealize.ShloMosaic
open Idealize.ShloMosaic.TcCoe

abbrev xch (c : Dev nD) (k : Fin 4) : Memref sig .tc .hbm S128x1024 .f32 :=
  ((Memref.whole main_arg0).slice (Rect.unit (s := S1x1024x1024) (k0_off1 c (BitVec.ofNat 32 (128 * k.val))) S1x128x1024.size (k0_off1_inb c k)) (fun _ => rfl)).squeeze
    S128x1024 squeezes_S1x128x1024_S128x1024

abbrev xchX (c : Dev nD) : Memref sig .tc .hbm S128x1024 .f32 :=
  ((Memref.whole main_arg0).slice (Rect.unit (s := S1x1024x1024) (k0_off2 c) S1x128x1024.size (k0_off2_inb c)) (fun _ => rfl)).squeeze
    S128x1024 squeezes_S1x128x1024_S128x1024

theorem xch_set (c : Dev nD) (k : Fin 4) :
    (xch c k).view.set
      = (Rect.unit (s := S1x1024x1024) (k0_off1 c (BitVec.ofNat 32 (128 * k.val))) S1x128x1024.size (k0_off1_inb c k)).set :=
  (View.set_reshape _ _).trans (View.set_slice_whole _ _)
theorem xchX_set (c : Dev nD) :
    (xchX c).view.set = (Rect.unit (s := S1x1024x1024) (k0_off2 c) S1x128x1024.size (k0_off2_inb c)).set :=
  (View.set_reshape _ _).trans (View.set_slice_whole _ _)

end Cert.KernelIdeal.RS

end
-- ==== Proof.XSplit.lean ====
import proofs.«901023_g7700000000001024_dist_rs_v7x_xyz2x2x2_y_m1024_n512_bf16_1_alg».proof.Proof.Sched
import proofs.«901023_g7700000000001024_dist_rs_v7x_xyz2x2x2_y_m1024_n512_bf16_1_alg».proof.Proof.Disj
import Idealize.ShloMosaic.Lib.Ring

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

abbrev xLoc (c : Dev nD) : Loc nD τ sig := (Memref.whole main_arg0).view.loc (c : Thread nD τ)

theorem rowOf_apart (c : Dev nD) (i i' : Fin 5) (h : i ≠ i') :
    rowOf c i.val + 128 ≤ rowOf c i'.val ∨ rowOf c i'.val + 128 ≤ rowOf c i.val := by
  have hz : c.val % 2 < 2 := Nat.mod_lt _ (by decide)
  have hi := i.isLt
  have hi' := i'.isLt
  have hne : i.val ≠ i'.val := fun e => h (Fin.ext e)
  unfold rowOf
  split <;> split <;> omega

theorem inb_chunk (c : Dev nD) (i : Fin 5) :
    ∀ a, (![0, rowOf c i.val, 0] : Fin 3 → ℕ) a + S1x128x1024.size a ≤ S1x1024x1024.size a := by
  have h := rowOf_lt c i.val i.isLt 127 (by decide)
  intro a
  match a with
  | ⟨0, _⟩ => show 0 + 1 ≤ 1; omega
  | ⟨1, _⟩ => show rowOf c i.val + 128 ≤ 1024; omega
  | ⟨2, _⟩ => show 0 + 1024 ≤ 1024; omega

abbrev chunkRect (c : Dev nD) (i : Fin 5) : Rect S1x1024x1024 :=
  Rect.unit (s := S1x1024x1024) ![0, rowOf c i.val, 0] S1x128x1024.size (inb_chunk c i)

theorem chunkRect_disjoint (c : Dev nD) (i i' : Fin 5) (h : i ≠ i') : Disjoint (chunkRect c i).set (chunkRect c i').set :=
  Rect.unit_disjoint (1 : Fin 3) (rowOf_apart c i i' h)

def chunkSet (c : Dev nD) (i : Fin 5) : Finset (Idx (xLoc c)) := (chunkRect c i).set

theorem rect_set_of_off {s : Shape} {off off' size : Fin s.rank → ℕ} {inb : ∀ a, off a + size a ≤ s.size a}
    {inb' : ∀ a, off' a + size a ≤ s.size a} (h : off = off') :
    (Rect.unit off size inb).set = (Rect.unit off' size inb').set := by
  subst h; rfl

theorem xch_chunk (c : Dev nD) (k : Fin 4) : (xch c k).view.set = chunkSet c ⟨k.val, by have := k.isLt; omega⟩ := by
  rw [xch_set]
  exact rect_set_of_off (by rw [k0_off1_eq]; show _ = ![0, rowOf c k.val, 0]; rw [rowOf, if_pos k.isLt])

theorem xchX_chunk (c : Dev nD) : (xchX c).view.set = chunkSet c 4 := by
  rw [xchX_set]
  exact rect_set_of_off (by rw [k0_off2_eq]; show _ = ![0, rowOf c 4, 0]; rw [rowOf, if_neg (by decide)])

def xRest (c : Dev nD) : Finset (Idx (xLoc c)) := Finset.univ \ Finset.univ.biUnion (chunkSet c)

def xPiece (c : Dev nD) : Option (Fin 5) → Finset (Idx (xLoc c))
  | some i => chunkSet c i
  | none => xRest c

theorem chunk_rest_disjoint (c : Dev nD) (i : Fin 5) : Disjoint (chunkSet c i) (xRest c) :=
  Finset.disjoint_of_subset_left (Finset.subset_biUnion_of_mem (chunkSet c) (Finset.mem_univ i)) Finset.disjoint_sdiff

theorem xPiece_disjoint (c : Dev nD) : ∀ b b' : Option (Fin 5), b ≠ b' → Disjoint (xPiece c b) (xPiece c b')
  | some i, some i', h => chunkRect_disjoint c i i' (fun e => h (congrArg some e))
  | some i, none, _ => chunk_rest_disjoint c i
  | none, some i, _ => (chunk_rest_disjoint c i).symm
  | none, none, h => absurd rfl h

theorem xPiece_cover (c : Dev nD) : Finset.univ.biUnion (xPiece c) = Finset.univ := by
  ext x
  simp only [Finset.mem_biUnion, Finset.mem_univ, true_and, iff_true]
  by_cases hx : x ∈ Finset.univ.biUnion (chunkSet c)
  · obtain ⟨i, -, hi⟩ := Finset.mem_biUnion.mp hx
    exact ⟨some i, hi⟩
  · exact ⟨none, Finset.mem_sdiff.mpr ⟨Finset.mem_univ _, hx⟩⟩

theorem bigSep_opt5 (Φ : Option (Fin 5) → sProp 𝕄) :
    bigSep Finset.univ Φ = iprop(Φ (some 0) ∗ Φ (some 1) ∗ Φ (some 2) ∗ Φ (some 3) ∗ Φ (some 4) ∗ Φ none) :=
  bigSep_univ_eq_bigSepL [some 0, some 1, some 2, some 3, some 4, none] (by decide) (by decide) Φ

theorem splitX_eq (c : Dev nD) (q : PosShare TreeShare) (f : Buf (Elt F) ((Memref.whole main_arg0).view.loc (c : Thread nD τ))) :
    ((Memref.whole main_arg0).view.loc (c : Thread nD τ) ↦{q} f : sProp 𝕄)
      = iprop(((xch c 0).view.loc (c : Thread nD τ) ↦[(xch c 0).view.set]{q} f)
          ∗ ((xch c 1).view.loc (c : Thread nD τ) ↦[(xch c 1).view.set]{q} f)
          ∗ ((xch c 2).view.loc (c : Thread nD τ) ↦[(xch c 2).view.set]{q} f)
          ∗ ((xch c 3).view.loc (c : Thread nD τ) ↦[(xch c 3).view.set]{q} f)
          ∗ ((xchX c).view.loc (c : Thread nD τ) ↦[(xchX c).view.set]{q} f)
          ∗ ((Memref.whole main_arg0).view.loc (c : Thread nD τ) ↦[xRest c]{q} f)) := by
  have e := Ring.pointsTo_blocks (Ix := Unit) (Val := Elt F) (Name := ℕ) (U := UU) (Lvl := ℕ) (q := q)
    (ℓ := xLoc c) (xPiece c) (xPiece_disjoint c) (xPiece_cover c) f
  rw [bigSep_opt5] at e
  rw [xch_chunk c 0, xch_chunk c 1, xch_chunk c 2, xch_chunk c 3, xchX_chunk c]
  exact e

theorem splitX (c : Dev nD) (q : PosShare TreeShare) (f : Buf (Elt F) ((Memref.whole main_arg0).view.loc (c : Thread nD τ))) :
    ((Memref.whole main_arg0).view.loc (c : Thread nD τ) ↦{q} f : sProp 𝕄)
      ⊢ iprop(((xch c 0).view.loc (c : Thread nD τ) ↦[(xch c 0).view.set]{q} f)
          ∗ ((xch c 1).view.loc (c : Thread nD τ) ↦[(xch c 1).view.set]{q} f)
          ∗ ((xch c 2).view.loc (c : Thread nD τ) ↦[(xch c 2).view.set]{q} f)
          ∗ ((xch c 3).view.loc (c : Thread nD τ) ↦[(xch c 3).view.set]{q} f)
          ∗ ((xchX c).view.loc (c : Thread nD τ) ↦[(xchX c).view.set]{q} f)
          ∗ ((Memref.whole main_arg0).view.loc (c : Thread nD τ) ↦[xRest c]{q} f)) :=
  Entails.of_eq (splitX_eq c q f)

theorem joinX (c : Dev nD) (q : PosShare TreeShare) (f : Buf (Elt F) ((Memref.whole main_arg0).view.loc (c : Thread nD τ))) :
    iprop(((xch c 0).view.loc (c : Thread nD τ) ↦[(xch c 0).view.set]{q} f)
          ∗ ((xch c 1).view.loc (c : Thread nD τ) ↦[(xch c 1).view.set]{q} f)
          ∗ ((xch c 2).view.loc (c : Thread nD τ) ↦[(xch c 2).view.set]{q} f)
          ∗ ((xch c 3).view.loc (c : Thread nD τ) ↦[(xch c 3).view.set]{q} f)
          ∗ ((xchX c).view.loc (c : Thread nD τ) ↦[(xchX c).view.set]{q} f)
          ∗ ((Memref.whole main_arg0).view.loc (c : Thread nD τ) ↦[xRest c]{q} f))
      ⊢ ((Memref.whole main_arg0).view.loc (c : Thread nD τ) ↦{q} f : sProp 𝕄) :=
  Entails.of_eq (splitX_eq c q f).symm

end Cert.KernelIdeal.RS

end
-- ==== Proof.ViewRows.lean ====
import proofs.«901023_g7700000000001024_dist_rs_v7x_xyz2x2x2_y_m1024_n512_bf16_1_alg».proof.Proof.ViewIdx
import proofs.«901023_g7700000000001024_dist_rs_v7x_xyz2x2x2_y_m1024_n512_bf16_1_alg».proof.Proof.Disj

noncomputable section

namespace Cert.KernelIdeal.RS

open Cert.KernelIdeal Cert.KernelIdeal.Gen
open Idealize.ShloMosaic
open Idealize.ShloMosaic.TcCoe

open Idealize.ShloMosaic.ValueIdx

variable {F : FTy → Type} [FloatOps F]

theorem read_xrows (off : Fin 3 → ℕ) (inb : ∀ a, off a + S1x128x1024.size a ≤ S1x1024x1024.size a) (row : ℕ)
    (hoff : off = ![0, row, 0]) (fX : S1x1024x1024.Idx → F .f32) (r : Fin 128) (j' : Fin 1024) :
    ((xA.slice (Rect.unit (s := S1x1024x1024) off S1x128x1024.size inb) (fun _ => rfl)).squeeze
        S128x1024 squeezes_S1x128x1024_S128x1024).view.read (Elt F) fX (ix2 r j')
      = xAt fX (row + r.val) j'.val := by
  subst hoff
  have hrow : row + 128 ≤ 1024 := inb 1
  have hr := r.isLt
  have hj := j'.isLt
  show fX ((Rect.unit (s := S1x1024x1024) ![0, row, 0] S1x128x1024.size inb).emb
      (Shape.reshapeEquiv squeezes_S1x128x1024_S128x1024.numel_eq (ix2 r j'))) = fX (ix3 (0 : Fin 1) (fin1024 (row + r.val)) (fin1024 j'.val))
  rw [reshapeEquiv_ix2_1ab]
  rw [unit_idx_ix3 _ inb _ r j' (0 : Fin 1) (fin1024 (row + r.val)) (fin1024 j'.val) (by show 0 = 0 + 0; rfl)
    (by rw [fin1024_val _ (by omega)]; rfl) (by rw [fin1024_val _ hj]; show j'.val = 0 + j'.val; omega)]

theorem read_xch (c : Dev nD) (k : Fin 4) (fX : S1x1024x1024.Idx → F .f32) (r : Fin 128) (j' : Fin 1024) :
    (xch c k).view.read (Elt F) fX (ix2 r j') = xAt fX (rowOf c k.val + r.val) j'.val := by
  have h := read_xrows _ (k0_off1_inb c k) (512 * (c.val % 2) + 128 * k.val) (k0_off1_eq c k) fX r j'
  rw [rowOf, if_pos k.isLt]
  exact h
theorem read_xchX (c : Dev nD) (fX : S1x1024x1024.Idx → F .f32) (r : Fin 128) (j' : Fin 1024) :
    (xchX c).view.read (Elt F) fX (ix2 r j') = xAt fX (rowOf c 4 + r.val) j'.val := by
  have h := read_xrows _ (k0_off2_inb c) (896 - 512 * (c.val % 2)) (k0_off2_eq c) fX r j'
  rw [rowOf, if_neg (by decide)]
  exact h

theorem slotIn_idx (k : Fin 5) (r : Fin 128) (j' : Fin 1024) :
    (Rect.unit (s := S5x128x1024) ![k.val, 0, 0] S1x128x1024.size (inb_slotIn k)).emb
        (Shape.reshapeEquiv squeezes_S1x128x1024_S128x1024.numel_eq (ix2 r j')) = ix3 k r j' := by
  rw [reshapeEquiv_ix2_1ab]
  exact unit_idx_ix3 _ (inb_slotIn k) _ r j' k r j' (by show k.val = k.val + 0; omega) (by show r.val = 0 + r.val; omega)
    (by show j'.val = 0 + j'.val; omega)

theorem mem_slotIn_set (k : Fin 5) (i : S5x128x1024.Idx) :
    i ∈ (Rect.unit (s := S5x128x1024) ![k.val, 0, 0] S1x128x1024.size (inb_slotIn k)).set ↔ i 0 = k := by
  rw [Rect.mem_set_unit]
  constructor
  · intro h
    have h0 := h 0
    exact Fin.ext (by have h1 : k.val ≤ (i 0).val := h0.1; have h2 : (i 0).val < k.val + 1 := h0.2; omega)
  · intro h a
    have h0 : (i 0).val = k.val := congrArg Fin.val h
    have h1 : (i 1).val < 128 := (i 1).isLt
    have h2 : (i 2).val < 1024 := (i 2).isLt
    match a with
    | ⟨0, _⟩ => show k.val ≤ (i 0).val ∧ (i 0).val < k.val + 1; omega
    | ⟨1, _⟩ => show 0 ≤ (i 1).val ∧ (i 1).val < 0 + 128; omega
    | ⟨2, _⟩ => show 0 ≤ (i 2).val ∧ (i 2).val < 0 + 1024; omega

theorem slotIn_set (k : Fin 5) :
    (slotIn k).view.set = (Rect.unit (s := S5x128x1024) ![k.val, 0, 0] S1x128x1024.size (inb_slotIn k)).set :=
  (View.set_reshape _ _).trans (View.set_slice_whole _ _)

theorem write_slotIn (k : Fin 5) (base : S5x128x1024.Idx → F .f32) (val : S128x1024.Idx → F .f32) (r : Fin 128) (j' : Fin 1024) :
    (slotIn k).view.write (Elt F) base val Finset.univ (ix3 k r j') = val (ix2 r j') := by
  rw [← slotIn_idx k r j']
  exact View.write_emb_of_mem (Val := Elt F) (v := (slotIn k).view) base val (Finset.mem_univ (ix2 r j'))

theorem write_slotIn_ne (k k' : Fin 5) (hk : k' ≠ k) (base : S5x128x1024.Idx → F .f32) (val : S128x1024.Idx → F .f32)
    (r : Fin 128) (j' : Fin 1024) :
    (slotIn k).view.write (Elt F) base val Finset.univ (ix3 k' r j') = base (ix3 k' r j') := by
  refine View.write_of_not_mem (Val := Elt F) (v := (slotIn k).view) base val Finset.univ ?_
  rw [View.setOn_univ, slotIn_set, mem_slotIn_set]
  exact hk

end Cert.KernelIdeal.RS

end
-- ==== Proof.Specs.lean ====
import proofs.«901023_g7700000000001024_dist_rs_v7x_xyz2x2x2_y_m1024_n512_bf16_1_alg».proof.Proof.Ghost
import proofs.«901023_g7700000000001024_dist_rs_v7x_xyz2x2x2_y_m1024_n512_bf16_1_alg».proof.Proof.ViewRows

noncomputable section

namespace Cert.KernelIdeal.RS

open Cert.KernelIdeal Cert.KernelIdeal.Gen
open Idealize.ShloMosaic
open Idealize.ShloMosaic.TcCoe

open Idealize.ShloMosaic.ValueIdx

variable {F : FTy → Type} [FloatOps F]
local notation "𝕄" => MT nD τ sig Unit (Elt F) ℕ UU ℕ

variable (m : (ℓ : Loc nD τ sig) → Buf (Elt F) ℓ)

abbrev nest5 (fI : S5x128x1024.Idx → F .f32) (d0 d1 d2 d3 d4 : S128x1024.Idx → F .f32) : S5x128x1024.Idx → F .f32 :=
  View.write (Elt F) (slotIn 4).view (View.write (Elt F) (slotIn 3).view (View.write (Elt F) (slotIn 2).view
    (View.write (Elt F) (slotIn 1).view (View.write (Elt F) (slotIn 0).view fI d0 Finset.univ) d1 Finset.univ) d2 Finset.univ) d3 Finset.univ) d4 Finset.univ

theorem nest5_spec (c : Dev nD) (fI : S5x128x1024.Idx → F .f32) (d0 d1 d2 d3 d4 : S128x1024.Idx → F .f32)
    (h0 : ∀ (r : Fin 128) (j' : Fin 1024), d0 (ix2 r j') = inG (X m c) c 0 r.val j'.val)
    (h1 : ∀ (r : Fin 128) (j' : Fin 1024), d1 (ix2 r j') = inG (X m c) c 1 r.val j'.val)
    (h2 : ∀ (r : Fin 128) (j' : Fin 1024), d2 (ix2 r j') = inG (X m c) c 2 r.val j'.val)
    (h3 : ∀ (r : Fin 128) (j' : Fin 1024), d3 (ix2 r j') = inG (X m c) c 3 r.val j'.val)
    (h4 : ∀ (r : Fin 128) (j' : Fin 1024), d4 (ix2 r j') = inG (X m c) c 4 r.val j'.val) (k : Fin 5) :
    SlotInIs (nest5 fI d0 d1 d2 d3 d4) k (inG (X m c) c k.val) := by
  intro r j'
  fin_cases k
  · show nest5 fI d0 d1 d2 d3 d4 (ix3 (0 : Fin 5) r j') = _
    unfold nest5
    rw [write_slotIn_ne 4 0 (by decide), write_slotIn_ne 3 0 (by decide), write_slotIn_ne 2 0 (by decide), write_slotIn_ne 1 0 (by decide), write_slotIn 0]
    exact h0 r j'
  · show nest5 fI d0 d1 d2 d3 d4 (ix3 (1 : Fin 5) r j') = _
    unfold nest5
    rw [write_slotIn_ne 4 1 (by decide), write_slotIn_ne 3 1 (by decide), write_slotIn_ne 2 1 (by decide), write_slotIn 1]
    exact h1 r j'
  · show nest5 fI d0 d1 d2 d3 d4 (ix3 (2 : Fin 5) r j') = _
    unfold nest5
    rw [write_slotIn_ne 4 2 (by decide), write_slotIn_ne 3 2 (by decide), write_slotIn 2]
    exact h2 r j'
  · show nest5 fI d0 d1 d2 d3 d4 (ix3 (3 : Fin 5) r j') = _
    unfold nest5
    rw [write_slotIn_ne 4 3 (by decide), write_slotIn 3]
    exact h3 r j'
  · show nest5 fI d0 d1 d2 d3 d4 (ix3 (4 : Fin 5) r j') = _
    unfold nest5
    rw [write_slotIn 4]
    exact h4 r j'

theorem send_spec (c : Dev nD) (k : Fin 5) (fI : S5x128x1024.Idx → F .f32) (fS : S5x128x512.Idx → F .bf16)
    (hI : SlotInIs fI k (inG (X m c) c k.val))
    (off : Fin 3 → ℕ) (inb : ∀ a, off a + S1x128x512.size a ≤ S5x128x1024.size a) (hoff : off = ![k.val, 0, pcol c])
    (off' : Fin 3 → ℕ) (inb' : ∀ a, off' a + S1x128x512.size a ≤ S5x128x512.size a) (hoff' : off' = ![k.val, 0, 0])
    (pay : Vec F S1x128x512 .f32 → FVec F S1x128x512 .bf16) (hpay : pay = k0_pay1) :
    SlotIs (View.write (Elt F) ((Memref.whole cc0_scratch1).access (Rect.unit (s := S5x128x512) off' S1x128x512.size inb')) fS
      (pay (View.readAt (Elt F) (Memref.whole cc0_scratch0).view (Rect.unit (s := S5x128x1024) off S1x128x512.size inb).toLoadRect fI)) Finset.univ)
      k (sendG (X m c) c k.val) := by
  intro r j
  subst hpay
  rw [store_slot_send off' inb' k hoff', pay1_apply, load_in off inb k (pcol c) hoff, hI r (fin1024 (pcol c + j.val))]
  unfold sendG
  rw [fin1024_val _ (pcol_lt c _ j.isLt)]

end Cert.KernelIdeal.RS

end
-- ==== Proof.BodyAB.lean ====
import proofs.«901023_g7700000000001024_dist_rs_v7x_xyz2x2x2_y_m1024_n512_bf16_1_alg».proof.Proof.Mid
import proofs.«901023_g7700000000001024_dist_rs_v7x_xyz2x2x2_y_m1024_n512_bf16_1_alg».proof.Proof.Rules
import proofs.«901023_g7700000000001024_dist_rs_v7x_xyz2x2x2_y_m1024_n512_bf16_1_alg».proof.Proof.XSplit
import proofs.«901023_g7700000000001024_dist_rs_v7x_xyz2x2x2_y_m1024_n512_bf16_1_alg».proof.Proof.Specs

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

private theorem recY (K : Dev nD × Fin 17 → ℕ) (c : Dev nD) (k : Fin 5) :
    records m K ⊢ iprop(cellInv ER (Rd m) (K (c, iYS k)) (ysendCell c k) ∗ cellInv ER (Rd m) (K (yp c, iYR k)) (yrecvCell (yp c) k)
      ∗ reached ER (ysendCell c k) 0 ∗ reached ER (yrecvCell (yp c) k) 0) := by
  iintro #HR
  ihave #H1 := (inv_YS m K c k) $$ HR
  ihave #H2 := (inv_YR m K (yp c) k) $$ HR
  ihave #H3 := (reached_YS m K c k) $$ HR
  ihave #H4 := (reached_YR m K (yp c) k) $$ HR
  iframe #

set_option maxHeartbeats 400000 in
set_option sl_exec.dmaWindow true in
set_option sl_exec.dmaWindowLent true in
theorem body_AB (K : Dev nD × Fin 17 → ℕ) (c : Dev nD) (Kt : PUnit → sProp 𝕄) (P : sProp 𝕄) :
    iprop(preAB m K c ∗ P ∗ ((midAB m K c ∗ P) -∗ wp frame (wpE (defs₀ (F := F)) 𝒱₀ c none) Set.univ (tailCD c (wx c) (wy c) (wz c) (Scalar.subi 1#32 (wy c)) (Scalar.subi 1#32 (wz c)) (Scalar.muli (wz c) 512#32) (Scalar.muli (Scalar.subi 1#32 (wz c)) 512#32) (Scalar.muli (wy c) 512#32)) Kt))
      ⊢ wp frame (wpE (defs₀ (F := F)) 𝒱₀ c none) Set.univ (std cc0_body) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  simp only [dev1_eq c, dev2_eq c]
  unfold preAB
  iintro ⟨⟨#HR, #Hlev, ⟨%W, HO⟩, HtBy, HtBz, ⟨HtR0, HtR1, HtR2, HtR3, HtR4⟩, ⟨HtS0, HtS1, HtS2, HtS3, HtS4⟩, HatB,
    ⟨HaS0, HaS1, HaS2, HaS3, HaS4⟩, HcB, ⟨Hd0, Hd1, Hd2, Hd3, Hd4⟩, HX, ⟨%fI, HI⟩,
    ⟨⟨%fS0, HS0⟩, ⟨%fS1, HS1⟩, ⟨%fS2, HS2⟩, ⟨%fS3, HS3⟩, ⟨%fS4, HS4⟩⟩, HpY, HpZ⟩, HP, Hk⟩
  ihave #HIby := (inv_B m K (yp c)) $$ HR
  ihave #HIbz := (inv_B m K (zn c)) $$ HR
  ihave #HRby := (reached_B m K (yp c)) $$ HR
  ihave #HRbz := (reached_B m K (zn c)) $$ HR
  ihave #HIb := (inv_B m K c) $$ HR

  unfold O₀
  iapply (Rounds.wp_signal 𝒱₀ ER (Rd m) (c : Thread nD τ) none (dst := (yp c : Thread nD τ)) (κ := K (yp c, iB))
      (d := false) (by rw [duties_bar]; exact Finset.mem_univ _) ((amount_bar m (yp c) false).trans (by decide)) () (O0b c) rfl)
    $$ [HO HtBy HpY]
  · rw [payload_bar_false]; iframe # ∗; iexact HO
  iintro HO
  unfold O0b
  iapply (Rounds.wp_signal 𝒱₀ ER (Rd m) (c : Thread nD τ) none (dst := (zn c : Thread nD τ)) (κ := K (zn c, iB))
      (d := true) (by rw [duties_bar]; exact Finset.mem_univ _) ((amount_bar m (zn c) true).trans (by decide)) () (O1 c) rfl)
    $$ [HO HtBz HpZ]
  · rw [payload_bar_true]; iframe # ∗; iexact HO
  iintro HO

  ihave ⟨HX0, HX1, HX2, HX3, HX4, HXr⟩ := (splitX (F := F) c fullShare _) $$ HX
  have hmw (j : DmaSem sig) (O : CellTallies nD τ sig Unit) (hj : j.val < 15) (hO : Above 0 O) :
      (levAts L lv : sProp 𝕄) ⊢ MayWait (c : Thread nD τ) (.dma j) () O := mayWait_cut c _ O 0 (le_of_eq (lv_low c j (Or.inl hj))) hO
  have a1 := above_O1 c (b := 0) (by omega)
  have a2 := above_O2 c (b := 0) (by omega)
  have a3 := above_O3 c (b := 0) (by omega)
  have a4 := above_O4 c (b := 0) (by omega)
  have a5 := above_O5 c (b := 0) (by omega)
  sl_exec

  iapply (Rounds.wp_wait_rest_token 𝒱₀ ER (Rd m) (c : Thread nD τ) none (κ := K (c, iB))
      (wpE_semWait_eq 𝒱₀ (c : Thread nD τ) none Set.univ) (Set.mem_univ _) () (O := O1 c) (R := 0) (m := 0) (T := ∅)
      (by rw [expect_bar]; decide)) $$ [HcB HO HatB]
  · iframe # ∗
    isplitl [HcB]; · iexact HcB
    iapply (mayWait_cut c _ _ 1 (le_of_eq (lv_bar c)) (above_O1 c (by omega))); iexact Hlev
  iintro ⟨HO, HatB, -, Hpay⟩
  ihave Hp := (Entails.of_eq (rest_bar m c)) $$ Hpay
  unfold barPayY
  icases Hp with ⟨⟨⟨%fd0, HD0⟩, ⟨%fd1, HD1⟩, ⟨%fd2, HD2⟩, ⟨%fd3, HD3⟩, ⟨%fd4, HD4⟩⟩, HpZc⟩
  sl_exec

  have hin := nest5_spec m c fI (body_AB.sl.dma0 m c) (body_AB.sl.dma0_1 m c) (body_AB.sl.dma0_2 m c) (body_AB.sl.dma0_3 m c) (body_AB.sl.dma0_4 m c)
    (read_xch c 0 _) (read_xch c 1 _) (read_xch c 2 _) (read_xch c 3 _) (read_xchX c _)
  unfold O1

  ihave ⟨#HIs0, #HIr0, #HRs0, #HRr0⟩ := (recY m K c 0) $$ HR
  iapply (wp_sendY m K c _ (dev3_eq c) 0 (body_AB.sl.HS0_w6 m c fI fS0) fd0 (send_spec m c 0 _ fS0 (hin 0) _ _ (k0_off3_eq c) _ _ rfl _ rfl) (O2 c) _) $$ [HS0 HD0 HO HtS0 HtR0]
  · iframe # ∗
  iintro ⟨HcS0, HO⟩
  sl_exec
  unfold O2

  ihave ⟨#HIs1, #HIr1, #HRs1, #HRr1⟩ := (recY m K c 1) $$ HR
  iapply (wp_sendY m K c _ (dev4_eq c) 1 (body_AB.sl.HS1_w1 m c fI fS1) fd1 (send_spec m c 1 _ fS1 (hin 1) _ _ (k0_off4_eq c) _ _ rfl _ pay2_eq) (O3 c) _) $$ [HS1 HD1 HO HtS1 HtR1]
  · iframe # ∗
  iintro ⟨HcS1, HO⟩
  sl_exec
  unfold O3

  ihave ⟨#HIs2, #HIr2, #HRs2, #HRr2⟩ := (recY m K c 2) $$ HR
  iapply (wp_sendY m K c _ (dev5_eq c) 2 (body_AB.sl.HS2_w1 m c fI fS2) fd2 (send_spec m c 2 _ fS2 (hin 2) _ _ (k0_off5_eq c) _ _ rfl _ pay3_eq) (O4 c) _) $$ [HS2 HD2 HO HtS2 HtR2]
  · iframe # ∗
  iintro ⟨HcS2, HO⟩
  sl_exec
  unfold O4

  ihave ⟨#HIs3, #HIr3, #HRs3, #HRr3⟩ := (recY m K c 3) $$ HR
  iapply (wp_sendY m K c _ (dev6_eq c) 3 (body_AB.sl.HS3_w1 m c fI fS3) fd3 (send_spec m c 3 _ fS3 (hin 3) _ _ (k0_off6_eq c) _ _ rfl _ pay4_eq) (O5 c) _) $$ [HS3 HD3 HO HtS3 HtR3]
  · iframe # ∗
  iintro ⟨HcS3, HO⟩
  sl_exec
  unfold O5

  ihave ⟨#HIs4, #HIr4, #HRs4, #HRr4⟩ := (recY m K c 4) $$ HR
  iapply (wp_sendY m K c _ (dev7_eq c) 4 (body_AB.sl.HS4_w1 m c fI fS4) fd4 (send_spec m c 4 _ fS4 (hin 4) _ _ (k0_off7_eq c) _ _ rfl _ pay5_eq) (O6 c) _) $$ [HS4 HD4 HO HtS4 HtR4]
  · iframe # ∗
  iintro ⟨HcS4, HO⟩
  sl_exec

  iapply (Rounds.wp_wait_rest_token 𝒱₀ ER (Rd m) (c : Thread nD τ) none (κ := K (c, iYS 0))
      (sm := .dma (ysendL 0)) (wpE_waitDma2_eq 𝒱₀ (c : Thread nD τ) none Set.univ) (Set.mem_univ _) () (O := O6 c) (R := 0) (m := 0) (T := ∅)
      (by rw [Nat.zero_add]; exact (expect_ysend m c 0).symm)) $$ [HcS0 HO HaS0]
  · iframe # ∗; iapply (hmw _ _ (by show 10 + (0 : Fin 5).val < 15; omega) (above_O6 c (by omega))); iexact Hlev
  iintro ⟨HO, HaS0, -, Hpay⟩
  ihave HS0' := (Entails.of_eq (rest_ysend m c 0)) $$ Hpay

  rw [Prog.pure_eq_ret, wp_ret]; imodintro
  iapply Hk
  unfold midAB ysendPay
  ihave HX := (joinX (F := F) c fullShare _) $$ [HX0 HX1 HX2 HX3 HX4 HXr]
  · iframe ∗
  iframe ∗
  isplitl [HO]; · (iexists _; iexact HO)
  isplitl [HI]
  · iexists _; isplitl [HI]; · iexact HI
    ipureintro; exact hin
  isplitl [Hd0]; · iexact Hd0
  isplitl [Hd1]; · iexact Hd1
  isplitl [Hd2]; · iexact Hd2
  isplitl [Hd3]; · iexact Hd3
  iexact Hd4

end Cert.KernelIdeal.RS

end
-- ==== Proof.Geom.lean ====
import proofs.«901023_g7700000000001024_dist_rs_v7x_xyz2x2x2_y_m1024_n512_bf16_1_alg».proof.Proof.Sched
import Idealize.ShloMosaic.Lib.Ring

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

abbrev slotRect (k : Fin 5) : Rect S5x128x512 := Rect.unit (s := S5x128x512) ![k.val, 0, 0] S1x128x512.size (inb_slot k)

theorem slotRect_disjoint (k k' : Fin 5) (h : k ≠ k') : Disjoint (slotRect k).set (slotRect k').set :=
  Ring.lead_disjoint (s := S5x128x512) (NB := 5) (0 : Fin 3) 1 (fun k : Fin 5 => ![k.val, 0, 0]) S1x128x512.size inb_slot
    (fun b => (Nat.one_mul _).symm) rfl k k' h

theorem slotRect_cover : Finset.univ.biUnion (fun k : Fin 5 => (slotRect k).set) = Finset.univ :=
  Ring.lead_cover (s := S5x128x512) (NB := 5) (0 : Fin 3) 1 (fun k : Fin 5 => ![k.val, 0, 0]) S1x128x512.size inb_slot
    (fun b => (Nat.one_mul _).symm)
    (fun b a ha => by
      rcases a with ⟨_ | _ | _ | a, ha'⟩
      · exact absurd rfl ha
      · rfl
      · rfl
      · exact absurd ha' (by change ¬ a + 3 < 3; omega))
    rfl
    (fun a ha => by
      rcases a with ⟨_ | _ | _ | a, ha'⟩
      · exact absurd rfl ha
      · rfl
      · rfl
      · exact absurd ha' (by change ¬ a + 3 < 3; omega))
    rfl

section Slots

variable (b : Memref sig .tc .vmem S5x128x512 .bf16) (c : Dev nD)

abbrev slotSet (k : Fin 5) : Finset (Idx (b.view.loc (c : Thread nD τ))) := (slot b k).view.set

theorem slotSet_eq (k : Fin 5) : slotSet b c k = (slotRect k).set.map b.view.emb := by
  show ((b.view.slice (slotRect k)).reshape S128x512 _).set = _
  rw [View.set_reshape, View.set_slice]

theorem slotSet_disjoint (k k' : Fin 5) (h : k ≠ k') : Disjoint (slotSet b c k) (slotSet b c k') := by
  rw [slotSet_eq, slotSet_eq]
  exact (Finset.disjoint_map _).mpr (slotRect_disjoint k k' h)

theorem slotSet_cover (hb : b.view.set = Finset.univ) : Finset.univ.biUnion (slotSet b c) = Finset.univ := by
  ext i
  simp only [Finset.mem_biUnion, Finset.mem_univ, true_and, iff_true]
  have hi : i ∈ b.view.set := by rw [hb]; exact Finset.mem_univ _
  obtain ⟨x, -, rfl⟩ := Finset.mem_map.mp hi
  have hx : x ∈ Finset.univ.biUnion (fun k : Fin 5 => (slotRect k).set) := by rw [slotRect_cover]; exact Finset.mem_univ _
  obtain ⟨k, -, hk⟩ := Finset.mem_biUnion.mp hx
  exact ⟨k, by rw [slotSet_eq]; exact Finset.mem_map_of_mem _ hk⟩

end Slots

section Slots5

variable (b : Memref sig .tc .vmem S5x128x512 .bf16) (hb : b.view.set = Finset.univ) (c : Dev nD)

include hb in
theorem split5_eq (q : PosShare TreeShare) (f : Buf (Elt F) (b.view.loc (c : Thread nD τ))) :
    (b.view.loc (c : Thread nD τ) ↦{q} f : sProp 𝕄)
      = iprop(((slot b 0).view.loc (c : Thread nD τ) ↦[(slot b 0).view.set]{q} f)
          ∗ ((slot b 1).view.loc (c : Thread nD τ) ↦[(slot b 1).view.set]{q} f)
          ∗ ((slot b 2).view.loc (c : Thread nD τ) ↦[(slot b 2).view.set]{q} f)
          ∗ ((slot b 3).view.loc (c : Thread nD τ) ↦[(slot b 3).view.set]{q} f)
          ∗ ((slot b 4).view.loc (c : Thread nD τ) ↦[(slot b 4).view.set]{q} f)) := by
  have e := Ring.pointsTo_blocks (Ix := Unit) (Val := Elt F) (Name := ℕ) (U := UU) (Lvl := ℕ) (q := q)
    (slotSet b c) (slotSet_disjoint b c) (slotSet_cover b c hb) f
  rw [bigSep_fin5] at e
  exact e

include hb in
theorem split5 (f : Buf (Elt F) (b.view.loc (c : Thread nD τ))) :
    (b.view.loc (c : Thread nD τ) ↦{fullShare} f : sProp 𝕄)
      ⊢ iprop(((slot b 0).view.loc (c : Thread nD τ) ↦[(slot b 0).view.set]{fullShare} f)
          ∗ ((slot b 1).view.loc (c : Thread nD τ) ↦[(slot b 1).view.set]{fullShare} f)
          ∗ ((slot b 2).view.loc (c : Thread nD τ) ↦[(slot b 2).view.set]{fullShare} f)
          ∗ ((slot b 3).view.loc (c : Thread nD τ) ↦[(slot b 3).view.set]{fullShare} f)
          ∗ ((slot b 4).view.loc (c : Thread nD τ) ↦[(slot b 4).view.set]{fullShare} f)) :=
  Entails.of_eq (split5_eq b hb c fullShare f)

include hb in
theorem join5_ex :
    iprop((∃ f, (slot b 0).view.loc (c : Thread nD τ) ↦[(slot b 0).view.set]{fullShare} f)
          ∗ (∃ f, (slot b 1).view.loc (c : Thread nD τ) ↦[(slot b 1).view.set]{fullShare} f)
          ∗ (∃ f, (slot b 2).view.loc (c : Thread nD τ) ↦[(slot b 2).view.set]{fullShare} f)
          ∗ (∃ f, (slot b 3).view.loc (c : Thread nD τ) ↦[(slot b 3).view.set]{fullShare} f)
          ∗ (∃ f, (slot b 4).view.loc (c : Thread nD τ) ↦[(slot b 4).view.set]{fullShare} f))
      ⊢ (iprop(∃ f, b.view.loc (c : Thread nD τ) ↦{fullShare} f) : sProp 𝕄) := by
  iintro ⟨⟨%f0, H0⟩, ⟨%f1, H1⟩, ⟨%f2, H2⟩, ⟨%f3, H3⟩, ⟨%f4, H4⟩⟩
  iapply (Ring.pointsTo_blocks_join_exists (Ix := Unit) (Val := Elt F) (Name := ℕ) (U := UU) (Lvl := ℕ) (q := fullShare)
    (slotSet b c) (slotSet_disjoint b c) (slotSet_cover b c hb) f0)
  irw [bigSep_fin5]
  isplitl [H0]; · iexists f0; iexact H0
  isplitl [H1]; · iexists f1; iexact H1
  isplitl [H2]; · iexists f2; iexact H2
  isplitl [H3]; · iexists f3; iexact H3
  iexists f4; iexact H4

end Slots5

theorem sendY_set : sendY.view.set = Finset.univ := View.set_whole _
theorem recvY_set : recvY.view.set = Finset.univ := View.set_whole _
theorem sumB_set : sumB.view.set = Finset.univ := View.set_whole _

section Halves

variable {cs : Space} {s : Shape} {e : EltTy} (c : Dev nD) (M : Memref sig .tc cs s e)

theorem halve (f : Buf (Elt F) (M.view.loc (c : Thread nD τ))) :
    (M.view.loc (c : Thread nD τ) ↦[M.view.set]{fullShare} f : sProp 𝕄)
      ⊢ iprop((M.view.loc (c : Thread nD τ) ↦[M.view.set]{fullShare.left} f)
          ∗ (M.view.loc (c : Thread nD τ) ↦[M.view.set]{fullShare.right} f)) :=
  (pointsTo_share (PosShare.mem_left_op_right fullShare)).1

theorem unhalve (f : Buf (Elt F) (M.view.loc (c : Thread nD τ))) :
    iprop((M.view.loc (c : Thread nD τ) ↦[M.view.set]{fullShare.left} f)
          ∗ (M.view.loc (c : Thread nD τ) ↦[M.view.set]{fullShare.right} f))
      ⊢ (M.view.loc (c : Thread nD τ) ↦[M.view.set]{fullShare} f : sProp 𝕄) :=
  (pointsTo_share (PosShare.mem_left_op_right fullShare)).2

end Halves

theorem inb_rowBlk (j : Fin 8) : ∀ a, (![128 * j.val, 0] : Fin 2 → Nat) a + S128x512.size a ≤ S1024x512.size a := by revert j; decide

abbrev rowBlk (j : Fin 8) : Rect S1024x512 := Rect.unit (s := S1024x512) ![128 * j.val, 0] S128x512.size (inb_rowBlk j)

theorem rowBlk_disjoint (j j' : Fin 8) (h : j ≠ j') : Disjoint (rowBlk j).set (rowBlk j').set :=
  Ring.lead_disjoint (s := S1024x512) (NB := 8) (0 : Fin 2) 128 (fun j : Fin 8 => ![128 * j.val, 0]) S128x512.size inb_rowBlk
    (fun b => rfl) rfl j j' h

theorem rowBlk_cover : Finset.univ.biUnion (fun j : Fin 8 => (rowBlk j).set) = Finset.univ :=
  Ring.lead_cover (s := S1024x512) (NB := 8) (0 : Fin 2) 128 (fun j : Fin 8 => ![128 * j.val, 0]) S128x512.size inb_rowBlk
    (fun b => rfl)
    (fun b a ha => by
      rcases a with ⟨_ | _ | a, ha'⟩
      · exact absurd rfl ha
      · rfl
      · exact absurd ha' (by change ¬ a + 2 < 2; omega))
    rfl
    (fun a ha => by
      rcases a with ⟨_ | _ | a, ha'⟩
      · exact absurd rfl ha
      · rfl
      · exact absurd ha' (by change ¬ a + 2 < 2; omega))
    rfl

theorem unit_set_congr {s : Shape} {off off' size : Fin s.rank → Nat} {inb : ∀ a, off a + size a ≤ s.size a}
    {inb' : ∀ a, off' a + size a ≤ s.size a} (h : off = off') :
    (Rect.unit off size inb).set = (Rect.unit off' size inb').set := by
  subst h; rfl

theorem outSl_set (c : Dev nD) (k : Fin 4) (j : Fin 8) (h : 512 * (c.val % 2) + 128 * k.val = 128 * j.val) :
    (outSl c k).view.set = (rowBlk j).set := by
  show ((View.whole main_v1).slice _).set = _
  rw [View.set_slice_whole]
  exact unit_set_congr (by rw [k0_off9_eq, h])

theorem outSlX_set (c : Dev nD) (j : Fin 8) (h : 896 - 512 * (c.val % 2) = 128 * j.val) :
    (outSlX c).view.set = (rowBlk j).set := by
  show ((View.whole main_v1).slice _).set = _
  rw [View.set_slice_whole]
  exact unit_set_congr (by rw [k0_off14_eq, h])

theorem bigSep_fin8_even (Φ : Fin 8 → sProp 𝕄) :
    bigSep Finset.univ Φ = iprop(Φ 0 ∗ Φ 1 ∗ Φ 2 ∗ Φ 3 ∗ Φ 7 ∗ Φ 4 ∗ Φ 5 ∗ Φ 6) :=
  bigSep_univ_eq_bigSepL [0, 1, 2, 3, 7, 4, 5, 6] (by decide) (by decide) Φ

theorem bigSep_fin8_odd (Φ : Fin 8 → sProp 𝕄) :
    bigSep Finset.univ Φ = iprop(Φ 4 ∗ Φ 5 ∗ Φ 6 ∗ Φ 7 ∗ Φ 3 ∗ Φ 0 ∗ Φ 1 ∗ Φ 2) :=
  bigSep_univ_eq_bigSepL [4, 5, 6, 7, 3, 0, 1, 2] (by decide) (by decide) Φ

theorem split8 (c : Dev nD) (f : Buf (Elt F) (oA.view.loc (c : Thread nD τ))) :
    (oA.view.loc (c : Thread nD τ) ↦{fullShare} f : sProp 𝕄)
      ⊢ iprop(((outSl c 0).view.loc (c : Thread nD τ) ↦[(outSl c 0).view.set]{fullShare} f)
          ∗ ((outSl c 1).view.loc (c : Thread nD τ) ↦[(outSl c 1).view.set]{fullShare} f)
          ∗ ((outSl c 2).view.loc (c : Thread nD τ) ↦[(outSl c 2).view.set]{fullShare} f)
          ∗ ((outSl c 3).view.loc (c : Thread nD τ) ↦[(outSl c 3).view.set]{fullShare} f)
          ∗ ((outSlX c).view.loc (c : Thread nD τ) ↦[(outSlX c).view.set]{fullShare} f)
          ∗ ((outSl (zn c) 0).view.loc (c : Thread nD τ) ↦[(outSl (zn c) 0).view.set]{fullShare} f)
          ∗ ((outSl (zn c) 1).view.loc (c : Thread nD τ) ↦[(outSl (zn c) 1).view.set]{fullShare} f)
          ∗ ((outSl (zn c) 2).view.loc (c : Thread nD τ) ↦[(outSl (zn c) 2).view.set]{fullShare} f)) := by
  have e := Ring.pointsTo_blocks (Ix := Unit) (Val := Elt F) (Name := ℕ) (U := UU) (Lvl := ℕ) (q := fullShare)
    (ℓ := oA.view.loc (c : Thread nD τ)) (fun j : Fin 8 => (rowBlk j).set) rowBlk_disjoint rowBlk_cover f
  have hzn := zn_z c
  rcases Nat.mod_two_eq_zero_or_one c.val with hz | hz
  · rw [bigSep_fin8_even] at e
    rw [outSl_set c 0 0 (by rw [hz]; rfl), outSl_set c 1 1 (by rw [hz]; rfl), outSl_set c 2 2 (by rw [hz]; rfl), outSl_set c 3 3 (by rw [hz]; rfl),
      outSlX_set c 7 (by rw [hz]; rfl), outSl_set (zn c) 0 4 (by rw [hzn, hz]; rfl), outSl_set (zn c) 1 5 (by rw [hzn, hz]; rfl),
      outSl_set (zn c) 2 6 (by rw [hzn, hz]; rfl)]
    exact Entails.of_eq e
  · rw [bigSep_fin8_odd] at e
    rw [outSl_set c 0 4 (by rw [hz]; rfl), outSl_set c 1 5 (by rw [hz]; rfl), outSl_set c 2 6 (by rw [hz]; rfl), outSl_set c 3 7 (by rw [hz]; rfl),
      outSlX_set c 3 (by rw [hz]; rfl), outSl_set (zn c) 0 0 (by rw [hzn, hz]; rfl), outSl_set (zn c) 1 1 (by rw [hzn, hz]; rfl),
      outSl_set (zn c) 2 2 (by rw [hzn, hz]; rfl)]
    exact Entails.of_eq e

end Cert.KernelIdeal.RS

end
-- ==== Proof.GeomCD.lean ====
import proofs.«901023_g7700000000001024_dist_rs_v7x_xyz2x2x2_y_m1024_n512_bf16_1_alg».proof.Proof.Geom

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section Halves

variable {cs : Space} {s : Shape} {e : EltTy} (c : Dev nD) (M : Memref sig .tc cs s e)

theorem unhalve_two (f g : Buf (Elt F) (M.view.loc (c : Thread nD τ))) :
    iprop((M.view.loc (c : Thread nD τ) ↦[M.view.set]{fullShare.left} f)
          ∗ (M.view.loc (c : Thread nD τ) ↦[M.view.set]{fullShare.right} g))
      ⊢ (M.view.loc (c : Thread nD τ) ↦[M.view.set]{fullShare} f : sProp 𝕄) := by
  refine pure_elim _ pointsTo_agree fun h => ?_
  have hg : ∀ i ∈ M.view.set, g i = f i := fun i hi => (h i (Finset.mem_inter.mpr ⟨hi, hi⟩)).1.symm
  rw [pointsTo_congr (f := g) (g := f) hg]
  exact unhalve c M f

theorem unhalve_ex :
    iprop((∃ f, M.view.loc (c : Thread nD τ) ↦[M.view.set]{fullShare.left} f)
          ∗ (∃ f, M.view.loc (c : Thread nD τ) ↦[M.view.set]{fullShare.right} f))
      ⊢ (iprop(∃ f, M.view.loc (c : Thread nD τ) ↦[M.view.set]{fullShare} f) : sProp 𝕄) := by
  iintro ⟨⟨%f, Hl⟩, ⟨%g, Hr⟩⟩
  iexists f
  iapply (unhalve_two (F := F) c M f g)
  isplitl [Hl]; · iexact Hl
  iexact Hr

end Halves

end Cert.KernelIdeal.RS

end
-- ==== Proof.End.lean ====
import proofs.«901023_g7700000000001024_dist_rs_v7x_xyz2x2x2_y_m1024_n512_bf16_1_alg».proof.Proof.Mid

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

def endCD (c : Dev nD) : sProp 𝕄 :=
  iprop((semVal (lsem c (dsemL 0)) 0 ∗ semVal (lsem c (dsemL 1)) 0 ∗ semVal (lsem c (dsemL 2)) 0 ∗ semVal (lsem c (dsemL 3)) 0 ∗ semVal (lsem c (dsemL 4)) 0)
    ∗ (semVal (lsem c (osemL 0)) 0 ∗ semVal (lsem c (osemL 1)) 0 ∗ semVal (lsem c (osemL 2)) 0 ∗ semVal (lsem c (osemL 3)) 0 ∗ semVal (lsem c (osemL 4)) 0)
    ∗ (atPos ER (ysendCell c 0) 1 ∅ 0 ∗ atPos ER (ysendCell c 1) 1 ∅ 0 ∗ atPos ER (ysendCell c 2) 1 ∅ 0 ∗ atPos ER (ysendCell c 3) 1 ∅ 0 ∗ atPos ER (ysendCell c 4) 1 ∅ 0)
    ∗ (atPos ER (yrecvCell c 0) 1 ∅ 0 ∗ atPos ER (yrecvCell c 1) 1 ∅ 0 ∗ atPos ER (yrecvCell c 2) 1 ∅ 0 ∗ atPos ER (yrecvCell c 3) 1 ∅ 0 ∗ atPos ER (yrecvCell c 4) 1 ∅ 0)
    ∗ (atPos ER (zsendCell c 0) 1 ∅ 0 ∗ atPos ER (zsendCell c 1) 1 ∅ 0 ∗ atPos ER (zsendCell c 2) 1 ∅ 0)
    ∗ (atPos ER (zrecvCell c 0) 1 ∅ 0 ∗ atPos ER (zrecvCell c 1) 1 ∅ 0 ∗ atPos ER (zrecvCell c 2) 1 ∅ 0)
    ∗ scr c cc0_scratch0
    ∗ ((∃ f, slotPts sendY fullShare c 0 f) ∗ (∃ f, slotPts sendY fullShare c 1 f) ∗ (∃ f, slotPts sendY fullShare c 2 f)
        ∗ (∃ f, slotPts sendY fullShare c 3 f) ∗ (∃ f, slotPts sendY fullShare c 4 f))
    ∗ ((∃ f, slotPts recvY fullShare c 0 f) ∗ (∃ f, slotPts recvY fullShare c 1 f) ∗ (∃ f, slotPts recvY fullShare c 2 f)
        ∗ (∃ f, slotPts recvY fullShare c 3 f) ∗ (∃ f, slotPts recvY fullShare c 4 f))
    ∗ (((∃ f, slotPts sumB fullShare.left c 0 f) ∗ (∃ f, slotPts sumB fullShare.right c 0 f))
        ∗ ((∃ f, slotPts sumB fullShare.left c 1 f) ∗ (∃ f, slotPts sumB fullShare.right c 1 f))
        ∗ ((∃ f, slotPts sumB fullShare.left c 2 f) ∗ (∃ f, slotPts sumB fullShare.right c 2 f))
        ∗ (∃ f, slotPts sumB fullShare c 3 f) ∗ (∃ f, slotPts sumB fullShare c 4 f))
    ∗ ((Memref.whole main_arg0).view.loc (c : Thread nD τ) ↦{fullShare} m ((c : Thread nD τ).loc main_arg0))
    ∗ outDone m c)

end Cert.KernelIdeal.RS

end
-- ==== Proof.PostCD.lean ====
import proofs.«901023_g7700000000001024_dist_rs_v7x_xyz2x2x2_y_m1024_n512_bf16_1_alg».proof.Proof.Rules
import proofs.«901023_g7700000000001024_dist_rs_v7x_xyz2x2x2_y_m1024_n512_bf16_1_alg».proof.Proof.GeomCD
import proofs.«901023_g7700000000001024_dist_rs_v7x_xyz2x2x2_y_m1024_n512_bf16_1_alg».proof.Proof.End

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

theorem close_cell {K : Dev nD × Fin 17 → ℕ} {g : GSem nD τ sig} {κ : ℕ} (hI : records m K ⊢ cellInv ER (Rd m) κ g) :
    iprop(records m K ∗ atPos ER g 1 ∅ 0) ⊢ (|={Set.univ}=> semVal g 0 : sProp 𝕄) := by
  iintro ⟨#HR, Hat⟩
  ihave #HI := hI $$ HR
  iapply (Rounds.cell_close ER (Rd m) (Set.mem_univ κ) (fun h => h) (R := 1) (duties_later m g))
  iframe # ∗

/-- Two updates that share a persistent resource compose over a separating conjunction. -/
theorem close_cons {R P Q A B : sProp 𝕄} [BI.Persistent R] (h1 : iprop(R ∗ P) ⊢ |={Set.univ}=> A) (h2 : iprop(R ∗ Q) ⊢ |={Set.univ}=> B) :
    iprop(R ∗ P ∗ Q) ⊢ (|={Set.univ}=> iprop(A ∗ B) : sProp 𝕄) := by
  iintro ⟨#HR, HP, HQ⟩
  imod h1 $$ [HP] with HA
  · iframe # ∗
  imod h2 $$ [HQ] with HB
  · iframe # ∗
  imodintro
  iframe

theorem close5 {K : Dev nD × Fin 17 → ℕ} {g : Fin 5 → GSem nD τ sig} {κ : Fin 5 → ℕ} (hI : ∀ k, records m K ⊢ cellInv ER (Rd m) (κ k) (g k)) :
    iprop(records m K ∗ (atPos ER (g 0) 1 ∅ 0 ∗ atPos ER (g 1) 1 ∅ 0 ∗ atPos ER (g 2) 1 ∅ 0 ∗ atPos ER (g 3) 1 ∅ 0 ∗ atPos ER (g 4) 1 ∅ 0))
      ⊢ (|={Set.univ}=> iprop(semVal (g 0) 0 ∗ semVal (g 1) 0 ∗ semVal (g 2) 0 ∗ semVal (g 3) 0 ∗ semVal (g 4) 0) : sProp 𝕄) :=
  close_cons (close_cell m (hI 0)) <| close_cons (close_cell m (hI 1)) <| close_cons (close_cell m (hI 2)) <| close_cons (close_cell m (hI 3)) (close_cell m (hI 4))

theorem close3 {K : Dev nD × Fin 17 → ℕ} {g : Fin 3 → GSem nD τ sig} {κ : Fin 3 → ℕ} (hI : ∀ k, records m K ⊢ cellInv ER (Rd m) (κ k) (g k)) :
    iprop(records m K ∗ (atPos ER (g 0) 1 ∅ 0 ∗ atPos ER (g 1) 1 ∅ 0 ∗ atPos ER (g 2) 1 ∅ 0))
      ⊢ (|={Set.univ}=> iprop(semVal (g 0) 0 ∗ semVal (g 1) 0 ∗ semVal (g 2) 0) : sProp 𝕄) :=
  close_cons (close_cell m (hI 0)) <| close_cons (close_cell m (hI 1)) (close_cell m (hI 2))

def semOf : Fin 5 ⊕ Fin 5 ⊕ Fin 5 ⊕ Fin 5 ⊕ Fin 3 ⊕ Fin 3 → DmaSem sig :=
  Sum.elim dsemL (Sum.elim osemL (Sum.elim ysendL (Sum.elim yrecvL (Sum.elim zsendL zrecvL))))
theorem semOf_bij : Function.Bijective semOf := by decide

theorem sems26 (c : Dev nD) :
    (bigSep Finset.univ fun j : DmaSem sig => (semVal ((c : Thread nD τ), SemLoc.dma j) 0 : sProp 𝕄))
      = iprop((semVal (lsem c (dsemL 0)) 0 ∗ semVal (lsem c (dsemL 1)) 0 ∗ semVal (lsem c (dsemL 2)) 0 ∗ semVal (lsem c (dsemL 3)) 0 ∗ semVal (lsem c (dsemL 4)) 0)
        ∗ (semVal (lsem c (osemL 0)) 0 ∗ semVal (lsem c (osemL 1)) 0 ∗ semVal (lsem c (osemL 2)) 0 ∗ semVal (lsem c (osemL 3)) 0 ∗ semVal (lsem c (osemL 4)) 0)
        ∗ (semVal (ysendCell c 0) 0 ∗ semVal (ysendCell c 1) 0 ∗ semVal (ysendCell c 2) 0 ∗ semVal (ysendCell c 3) 0 ∗ semVal (ysendCell c 4) 0)
        ∗ (semVal (yrecvCell c 0) 0 ∗ semVal (yrecvCell c 1) 0 ∗ semVal (yrecvCell c 2) 0 ∗ semVal (yrecvCell c 3) 0 ∗ semVal (yrecvCell c 4) 0)
        ∗ (semVal (zsendCell c 0) 0 ∗ semVal (zsendCell c 1) 0 ∗ semVal (zsendCell c 2) 0)
        ∗ (semVal (zrecvCell c 0) 0 ∗ semVal (zrecvCell c 1) 0 ∗ semVal (zrecvCell c 2) 0)) := by
  rw [bigSep_univ_equiv (Equiv.ofBijective semOf semOf_bij), bigSep_univ_sum, bigSep_univ_sum, bigSep_univ_sum, bigSep_univ_sum, bigSep_univ_sum,
    bigSep_fin5, bigSep_fin5, bigSep_fin5, bigSep_fin5, Ring.bigSep_fin3, Ring.bigSep_fin3]
  rfl

theorem end_post (K : Dev nD × Fin 17 → ℕ) (c : Dev nD) :
    iprop(records m K ∗ endCD m c) ⊢ (|={Set.univ}=> Φ₁ m c : sProp 𝕄) := by
  unfold endCD Φ₁ scr
  rw [sems26]
  iintro ⟨#HR, Hd, Ho, HaYS, HaYR, HaZS, HaZR, Hs0, HS, HRv, ⟨Hm0, Hm1, Hm2, Hm34⟩, HX, Hout⟩
  imod (close5 m (inv_YS m K c)) $$ [HaYS] with ZYS
  · iframe # ∗
  imod (close5 m (inv_YR m K c)) $$ [HaYR] with ZYR
  · iframe # ∗
  imod (close3 m (inv_ZS m K c)) $$ [HaZS] with ZZS
  · iframe # ∗
  imod (close3 m (inv_ZR m K c)) $$ [HaZR] with ZZR
  · iframe # ∗
  imodintro
  ihave Hm0 := (unhalve_ex (F := F) c (slot sumB 0)) $$ Hm0
  ihave Hm1 := (unhalve_ex (F := F) c (slot sumB 1)) $$ Hm1
  ihave Hm2 := (unhalve_ex (F := F) c (slot sumB 2)) $$ Hm2
  ihave HS := (join5_ex (F := F) sendY sendY_set c) $$ HS
  ihave HRv := (join5_ex (F := F) recvY recvY_set c) $$ HRv
  ihave HSm := (join5_ex (F := F) sumB sumB_set c) $$ [Hm0 Hm1 Hm2 Hm34]
  · iframe
  iframe

end Cert.KernelIdeal.RS

end
-- ==== Proof.BodyCD.lean ====
import proofs.«901023_g7700000000001024_dist_rs_v7x_xyz2x2x2_y_m1024_n512_bf16_1_alg».proof.Proof.PostCD

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

variable {F : FTy → Type} [FloatOps F]
local notation "𝕄" => MT nD τ sig Unit (Elt F) ℕ UU ℕ

variable (m : (ℓ : Loc nD τ sig) → Buf (Elt F) ℓ)

theorem outSl_idxCD (d : Dev nD) (k : Fin 4) (r : Fin 128) (j : Fin 512) :
    (outSl d k).view.emb (ix2 r j) = ix2 (fin1024 (rowOf d k.val + r.val)) j := by
  have hk := k.isLt
  have hr := r.isLt
  have hlt : rowOf d k.val + r.val < 1024 := rowOf_lt d k.val (by omega) r.val hr
  show (Rect.unit (s := S1024x512) (k0_off9 d (BitVec.ofNat 32 (128 * k.val))) S128x512.size (k0_off9_inb d k)).emb (ix2 r j) = _
  refine unit_idx_ix2 _ (k0_off9_inb d k) r j _ j ?_ ?_
  · rw [fin1024_val _ hlt, k0_off9_eq]
    show rowOf d k.val + r.val = 512 * (d.val % 2) + 128 * k.val + r.val
    unfold rowOf; rw [if_pos hk]
  · rw [k0_off9_eq]; show j.val = 0 + j.val; omega

theorem write_outSlCD (d : Dev nD) (k : Fin 4) (fd : S1024x512.Idx → F .bf16) (v : S128x512.Idx → F .bf16) (r : Fin 128) (j : Fin 512) :
    (outSl d k).view.write (Elt F) fd v Finset.univ (ix2 (fin1024 (rowOf d k.val + r.val)) j) = v (ix2 r j) := by
  rw [← outSl_idxCD d k r j]
  exact View.write_emb_of_mem (Val := Elt F) (v := (outSl d k).view) fd v (Finset.mem_univ (ix2 r j))

theorem outSlX_idxCD (d : Dev nD) (r : Fin 128) (j : Fin 512) :
    (outSlX d).view.emb (ix2 r j) = ix2 (fin1024 (rowOf d 4 + r.val)) j := by
  have hr := r.isLt
  have hlt : rowOf d 4 + r.val < 1024 := rowOf_lt d 4 (by omega) r.val hr
  show (Rect.unit (s := S1024x512) (k0_off14 d) S128x512.size (k0_off14_inb d)).emb (ix2 r j) = _
  refine unit_idx_ix2 _ (k0_off14_inb d) r j _ j ?_ ?_
  · rw [fin1024_val _ hlt, k0_off14_eq]
    show rowOf d 4 + r.val = 896 - 512 * (d.val % 2) + r.val
    unfold rowOf; rw [if_neg (by omega)]
  · rw [k0_off14_eq]; show j.val = 0 + j.val; omega

theorem write_outSlXCD (d : Dev nD) (fd : S1024x512.Idx → F .bf16) (v : S128x512.Idx → F .bf16) (r : Fin 128) (j : Fin 512) :
    (outSlX d).view.write (Elt F) fd v Finset.univ (ix2 (fin1024 (rowOf d 4 + r.val)) j) = v (ix2 r j) := by
  rw [← outSlX_idxCD d r j]
  exact View.write_emb_of_mem (Val := Elt F) (v := (outSlX d).view) fd v (Finset.mem_univ (ix2 r j))

theorem wp_waitCellCD (κ : ℕ) (c : Dev nD) (sem : DmaSem sig) (P : sProp 𝕄)
    (hexp : (Rd (F := F) m).expect ((c : Thread nD τ), SemLoc.dma sem) 0 = N)
    (hrest : bigSep ((Rd (F := F) m).duties ((c : Thread nD τ), SemLoc.dma sem) 0 \ ∅)
      (fun d => (Rd (F := F) m).payload ((c : Thread nD τ), SemLoc.dma sem) 0 d) = P)
    {sp sp' : Space} {s s' : Shape} {e e' : EltTy}
    {src : Memref sig (c : Thread nD τ).2.kind sp' s' e'} {dst : Memref sig .tc sp s e} {hsrc : src.view.WordExact} {hdst : dst.view.WordExact}
    (hN : dst.view.dmaCredit = N)
    {α : Type} {Q : α → sProp 𝕄} {kont : PUnit → Prog (TpuEff nD τ sig (Elt F) Λ₀ .tc) α}
    (O : CellTallies nD τ sig Unit) (W : Waits sig Unit)
    (hmw : (levAts L lv : sProp 𝕄) ⊢ MayWait (c : Thread nD τ) (SemLoc.dma sem) () O) :
    iprop(cellInv ER (Rd m) κ ((c : Thread nD τ), SemLoc.dma sem) ∗ levAts L lv ∗ cred (tallyAt ((c : Thread nD τ), SemLoc.dma sem) () N)
        ∗ owes (c : Thread nD τ) O W ∗ atPos ER ((c : Thread nD τ), SemLoc.dma sem) 0 ∅ 0)
      ⊢ iprop(((owes (c : Thread nD τ) O (insert (SemLoc.dma sem, ()) W) ∗ atPos ER ((c : Thread nD τ), SemLoc.dma sem) 1 ∅ 0 ∗ P)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sem src dst hsrc hdst) kont) Q) := by
  subst hrest
  iintro ⟨HI, Hlev, Hc, HO, Hat⟩ Hk
  iapply (Rounds.wp_wait_rest_token 𝒱₀ ER (Rd m) (c : Thread nD τ) none (κ := κ)
      (wpE_waitDma2_eq 𝒱₀ (c : Thread nD τ) none Set.univ) (Set.mem_univ _) () (O := O) (W := W) (R := 0) (m := 0) (T := ∅)
      (by rw [Nat.zero_add, hexp, hN])) $$ [HI Hlev Hc HO Hat]
  · isplitl [HI]; · iexact HI
    isplitl [Hc]; · rw [hN]; iexact Hc
    isplitl [HO]; · iexact HO
    isplitl [Hlev]; · iapply hmw; iexact Hlev
    iexact Hat
  iintro ⟨HO, Hat, -, Hpay⟩
  iapply Hk
  iframe

theorem mayWait_nil (c : Dev nD) (s : SemLoc sig) : (levAts L lv : sProp 𝕄) ⊢ MayWait (c : Thread nD τ) s () 0 := by
  rw [MayWait_zero]; iintro -; iempintro

theorem wp_sendZ (K : Dev nD × Fin 17 → ℕ) (c n : Dev nD) (hn : n = zn c) (k : Fin 3)
    {hsc : (outSl c (k4 k) : Memref sig (Dev.tc n : Thread nD τ).2.kind .hbm S128x512 .bf16).view.ref.isScScratch = false}
    {hsrc : (slot sumB (k5 k)).view.WordExact} {hdst : (outSl c (k4 k)).view.WordExact}
    {hsem : DmaTarget.Typed .vmem (.dma (zrecvL k)) (.remote (Dev.tc n : Thread nD τ) (outSl c (k4 k)) (.dma (zsendL k)) hsc)}
    {α : Type} {Q : α → sProp 𝕄} {kont : PUnit → Prog (TpuEff nD τ sig (Elt F) Λ₀ .tc) α}
    (fs : Buf (Elt F) ((slot sumB (k5 k)).view.loc (c : Thread nD τ))) (fd : Buf (Elt F) ((outSl c (k4 k)).view.loc (zn c : Thread nD τ)))
    (hfs : SlotIs fs (k5 k) (sumOf m c k.val))
    (O : CellTallies nD τ sig Unit) (W : Waits sig Unit) :
    iprop(cellInv ER (Rd m) (K (c, iZS k)) (zsendCell c k) ∗ cellInv ER (Rd m) (K (zn c, iZR k)) (zrecvCell (zn c) k)
        ∗ slotPts sumB fullShare.left c (k5 k) fs ∗ rowsPts (zn c) (outSl c (k4 k)) fd
        ∗ owes (c : Thread nD τ) (O + tZ c k) W
        ∗ dutyTok ER (zsendCell c k) 0 false ∗ reached ER (zsendCell c k) 0
        ∗ dutyTok ER (zrecvCell (zn c) k) 0 false ∗ reached ER (zrecvCell (zn c) k) 0)
      ⊢ iprop(((cred (tallyAt (zsendCell c k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (slot sumB (k5 k)) (.remote (Dev.tc n : Thread nD τ) (outSl c (k4 k)) (.dma (zsendL k)) hsc) (.dma (zrecvL k)) hsrc hdst hsem) kont) Q) := by
  subst hn
  let G : Dev nD → sProp 𝕄 := fun e => iprop(∃ f, rowsPts (zn c) (outSl e (k4 k)) f
    ∗ ⌜RowsAre f (rowOf e k.val) (sumG (X m e) (sendG (X m (yp e)) (yp e) k.val) e k.val)⌝)
  have hG : zrecvPay m (zn c) k = G c := congrArg G (zn_zn c)
  exact Rounds.wp_send_pointsTo 𝒱₀ ER (Rd m) (c : Thread nD τ) none (κ₁ := K (c, iZS k)) (κ₂ := K (zn c, iZR k))
    (r₁ := 0) (r₂ := 0) (d₁ := false) (d₂ := false) (q := fullShare.left) (fs := fs) (fd := fd)
    (by rw [duties_zsend]; exact Finset.mem_singleton_self _) (by rw [duties_zrecv]; exact Finset.mem_singleton_self _)
    () () N rfl (amount_dma m c _ false) (amount_dma m (zn c) _ false) O rfl (W := W)
    (by rw [payload_zsend]; unfold zsendPay; iintro H; iexists fs; iexact H)
    (by
      rw [payload_zrecv, hG]
      iintro H
      iexists _
      isplitl [H]; · iexact H
      ipureintro
      intro r j
      have hk4 : (k4 k).val = k.val := rfl
      rw [← hk4, write_outSlCD, read_slot_sum]
      exact hfs r j)

theorem localSems_eqCD (c : Dev nD) :
    (localSems c : sProp 𝕄) = iprop(semVal ((c : Thread nD τ), SemLoc.dma (dsemL 0)) 0 ∗ semVal ((c : Thread nD τ), SemLoc.dma (dsemL 1)) 0
      ∗ semVal ((c : Thread nD τ), SemLoc.dma (dsemL 2)) 0 ∗ semVal ((c : Thread nD τ), SemLoc.dma (dsemL 3)) 0
      ∗ semVal ((c : Thread nD τ), SemLoc.dma (dsemL 4)) 0
      ∗ semVal ((c : Thread nD τ), SemLoc.dma (osemL 0)) 0 ∗ semVal ((c : Thread nD τ), SemLoc.dma (osemL 1)) 0
      ∗ semVal ((c : Thread nD τ), SemLoc.dma (osemL 2)) 0 ∗ semVal ((c : Thread nD τ), SemLoc.dma (osemL 3)) 0
      ∗ semVal ((c : Thread nD τ), SemLoc.dma (osemL 4)) 0) := by
  unfold localSems
  rw [bigSep_univ_eq_bigSepL [0, 1, 2, 3, 4, 5, 6, 7, 8, 9] (by decide) (by decide)]
  rfl

theorem sumSlot_isCD (c : Dev nD) (k : Fin 5) (offI : Fin 3 → ℕ) (inbI : ∀ a, offI a + S1x128x512.size a ≤ S5x128x1024.size a)
    (hoffI : offI = ![k.val, 0, mcol c])
    (off : Fin 3 → ℕ) (inb : ∀ a, off a + S1x128x512.size a ≤ S5x128x512.size a) (hoff : off = ![k.val, 0, 0])
    (pay : Vec F S1x128x512 .f32 → Vec F S1x128x512 .bf16 → Vec F S1x128x512 .bf16) (hpay : pay = k0_pay6)
    (fI : S5x128x1024.Idx → F .f32) (hfI : SlotInIs fI k (inG (X m c) c k.val))
    (fR : S5x128x512.Idx → F .bf16) (hfR : SlotIs fR k (sendG (X m (yp c)) (yp c) k.val)) (fB : S5x128x512.Idx → F .bf16) :
    SlotIs (View.write (Elt F) ((Memref.whole cc0_scratch3).access (Rect.unit (s := S5x128x512) off S1x128x512.size inb)) fB
      (pay (View.readAt (Elt F) (Memref.whole cc0_scratch0).view (Rect.unit (s := S5x128x1024) offI S1x128x512.size inbI).toLoadRect fI)
        (View.readAt (Elt F) (Memref.whole cc0_scratch2).view (Rect.unit (s := S5x128x512) off S1x128x512.size inb).toLoadRect fR))
      Finset.univ) k (sumOf m c k.val) := by
  subst hpay
  intro r j
  have hj := j.isLt
  rw [store_slot_sum off inb k hoff, pay6_apply, load_in offI inbI k (mcol c) hoffI, load_slot_recv off inb k hoff, hfI r, hfR r j,
    fin1024_val _ (mcol_lt c j.val hj)]
  rfl

theorem rows_isCD (c : Dev nD) (k : Fin 4) (k5' : Fin 5) (fo : S1024x512.Idx → F .bf16) (fs : S5x128x512.Idx → F .bf16)
    (g : ℕ → ℕ → F .bf16) (hs : SlotIs fs k5' g) (v : S128x512.Idx → F .bf16) (hv : v = (slot sumB k5').view.read (Elt F) fs) :
    RowsAre ((outSl c k).view.writes (Elt F) fo [⟨Rect.whole S128x512, v⟩]) (rowOf c k.val) g := by
  intro r j
  subst hv
  rw [← View.write_univ_eq_writes_whole, View.writes_nil, write_outSlCD, read_slot_sum]
  exact hs r j
theorem rowsX_isCD (c : Dev nD) (k5' : Fin 5) (fo : S1024x512.Idx → F .bf16) (fs : S5x128x512.Idx → F .bf16)
    (g : ℕ → ℕ → F .bf16) (hs : SlotIs fs k5' g) (v : S128x512.Idx → F .bf16) (hv : v = (slot sumB k5').view.read (Elt F) fs) :
    RowsAre ((outSlX c).view.writes (Elt F) fo [⟨Rect.whole S128x512, v⟩]) (rowOf c 4) g := by
  intro r j
  subst hv
  rw [← View.write_univ_eq_writes_whole, View.writes_nil, write_outSlXCD, read_slot_sum]
  exact hs r j

theorem zrecvPay_rows0CD (c : Dev nD) : zrecvPay m c 0 = rowsDone c (zn c) 0 (sumOf m (zn c) 0) := rfl
theorem zrecvPay_rows1CD (c : Dev nD) : zrecvPay m c 1 = rowsDone c (zn c) 1 (sumOf m (zn c) 1) := rfl
theorem zrecvPay_rows2CD (c : Dev nD) : zrecvPay m c 2 = rowsDone c (zn c) 2 (sumOf m (zn c) 2) := rfl

def copying (c : Dev nD) (sem : DmaSem sig) (M : Memref sig .tc .hbm S128x512 .bf16) (k : Fin 5) (q : PosShare TreeShare) (g : ℕ → ℕ → F .bf16) : sProp 𝕄 :=
  iprop(∃ fo fs, Transfers.Flight countersEmb (c : Thread nD τ) (SemLoc.dma sem) default 4096 iprop((M.view.loc (c : Thread nD τ) ↦[M.view.set]{fullShare} M.view.writes (Elt F) fo [⟨Rect.whole S128x512, (slot sumB k).view.read (Elt F) fs⟩]) ∗ ((slot sumB k).view.loc (c : Thread nD τ) ↦[(slot sumB k).view.set]{q} fs)) ∗ ⌜SlotIs fs k g⌝)

def stD (K : Dev nD × Fin 17 → ℕ) (c : Dev nD) : sProp 𝕄 :=
  iprop(records m K ∗ levAts L lv
    ∗ (∃ W, owes (c : Thread nD τ) (O8 c) W)
    ∗ ((Memref.whole main_arg0).view.loc (c : Thread nD τ) ↦{fullShare} m ((c : Thread nD τ).loc main_arg0))
    ∗ (∃ fI, ((Memref.whole cc0_scratch0).view.loc (c : Thread nD τ) ↦{fullShare} fI) ∗ ⌜∀ k : Fin 5, SlotInIs fI k (inG (X m c) c k.val)⌝)
    ∗ (∃ f, slotPts sendY fullShare c 0 f)
    ∗ ysendPay c 1
    ∗ (∃ f, slotPts recvY fullShare c 0 f)
    ∗ (∃ f, slotPts recvY fullShare c 1 f)
    ∗ copying c (osemL 0) (outSl c 0) 0 fullShare.right (sumOf m c 0)
    ∗ copying c (osemL 1) (outSl c 1) 1 fullShare.right (sumOf m c 1)
    ∗ (∃ f, slotPts sumB fullShare c 2 f)
    ∗ (∃ f, slotPts sumB fullShare c 3 f)
    ∗ (∃ f, slotPts sumB fullShare c 4 f)
    ∗ (∃ f, rowsPts c (outSl c 2) f)
    ∗ (∃ f, rowsPts c (outSl c 3) f)
    ∗ (∃ f, rowsPts c (outSlX c) f)
    ∗ (∃ f, rowsPts (zn c) (outSl c 2) f)
    ∗ semVal ((c : Thread nD τ), SemLoc.dma (dsemL 0)) 0
    ∗ semVal ((c : Thread nD τ), SemLoc.dma (dsemL 1)) 0
    ∗ semVal ((c : Thread nD τ), SemLoc.dma (dsemL 2)) 0
    ∗ semVal ((c : Thread nD τ), SemLoc.dma (dsemL 3)) 0
    ∗ semVal ((c : Thread nD τ), SemLoc.dma (dsemL 4)) 0
    ∗ semVal ((c : Thread nD τ), SemLoc.dma (osemL 2)) 0
    ∗ semVal ((c : Thread nD τ), SemLoc.dma (osemL 3)) 0
    ∗ semVal ((c : Thread nD τ), SemLoc.dma (osemL 4)) 0
    ∗ atPos ER (barCell c) 1 ∅ 0
    ∗ atPos ER (ysendCell c 0) 1 ∅ 0
    ∗ atPos ER (ysendCell c 1) 1 ∅ 0
    ∗ atPos ER (ysendCell c 2) 0 ∅ 0
    ∗ atPos ER (ysendCell c 3) 0 ∅ 0
    ∗ atPos ER (ysendCell c 4) 0 ∅ 0
    ∗ atPos ER (yrecvCell c 0) 1 ∅ 0
    ∗ atPos ER (yrecvCell c 1) 1 ∅ 0
    ∗ atPos ER (yrecvCell c 2) 0 ∅ 0
    ∗ atPos ER (yrecvCell c 3) 0 ∅ 0
    ∗ atPos ER (yrecvCell c 4) 0 ∅ 0
    ∗ atPos ER (zsendCell c 0) 0 ∅ 0
    ∗ atPos ER (zsendCell c 1) 0 ∅ 0
    ∗ atPos ER (zsendCell c 2) 0 ∅ 0
    ∗ atPos ER (zrecvCell c 0) 0 ∅ 0
    ∗ atPos ER (zrecvCell c 1) 0 ∅ 0
    ∗ atPos ER (zrecvCell c 2) 0 ∅ 0
    ∗ cred (tallyAt (ysendCell c 2) () N)
    ∗ cred (tallyAt (ysendCell c 3) () N)
    ∗ cred (tallyAt (ysendCell c 4) () N)
    ∗ cred (tallyAt (yrecvCell c 2) () N)
    ∗ cred (tallyAt (yrecvCell c 3) () N)
    ∗ cred (tallyAt (yrecvCell c 4) () N)
    ∗ cred (tallyAt (zrecvCell c 0) () N)
    ∗ cred (tallyAt (zrecvCell c 1) () N)
    ∗ cred (tallyAt (zrecvCell c 2) () N)
    ∗ cred (tallyAt (zsendCell c 0) () N)
    ∗ cred (tallyAt (zsendCell c 1) () N)
    ∗ dutyTok ER (zrecvCell (zn c) 2) 0 false
    ∗ dutyTok ER (zsendCell c 2) 0 false)

def stE (K : Dev nD × Fin 17 → ℕ) (c : Dev nD) : sProp 𝕄 :=
  iprop(records m K ∗ levAts L lv
    ∗ (∃ W, owes (c : Thread nD τ) 0 W)
    ∗ ((Memref.whole main_arg0).view.loc (c : Thread nD τ) ↦{fullShare} m ((c : Thread nD τ).loc main_arg0))
    ∗ scr c cc0_scratch0
    ∗ (∃ f, slotPts sendY fullShare c 0 f)
    ∗ ysendPay c 1
    ∗ ysendPay c 2
    ∗ ysendPay c 3
    ∗ ysendPay c 4
    ∗ (∃ f, slotPts recvY fullShare c 0 f)
    ∗ (∃ f, slotPts recvY fullShare c 1 f)
    ∗ (∃ f, slotPts recvY fullShare c 2 f)
    ∗ (∃ f, slotPts recvY fullShare c 3 f)
    ∗ (∃ f, slotPts recvY fullShare c 4 f)
    ∗ copying c (osemL 0) (outSl c 0) 0 fullShare.right (sumOf m c 0)
    ∗ copying c (osemL 1) (outSl c 1) 1 fullShare.right (sumOf m c 1)
    ∗ copying c (osemL 2) (outSl c 2) 2 fullShare.right (sumOf m c 2)
    ∗ copying c (osemL 3) (outSl c 3) 3 fullShare (sumOf m c 3)
    ∗ copying c (osemL 4) (outSlX c) 4 fullShare (sumOf m c 4)
    ∗ semVal ((c : Thread nD τ), SemLoc.dma (dsemL 0)) 0
    ∗ semVal ((c : Thread nD τ), SemLoc.dma (dsemL 1)) 0
    ∗ semVal ((c : Thread nD τ), SemLoc.dma (dsemL 2)) 0
    ∗ semVal ((c : Thread nD τ), SemLoc.dma (dsemL 3)) 0
    ∗ semVal ((c : Thread nD τ), SemLoc.dma (dsemL 4)) 0
    ∗ atPos ER (barCell c) 1 ∅ 0
    ∗ atPos ER (ysendCell c 0) 1 ∅ 0
    ∗ atPos ER (ysendCell c 1) 1 ∅ 0
    ∗ atPos ER (ysendCell c 2) 1 ∅ 0
    ∗ atPos ER (ysendCell c 3) 1 ∅ 0
    ∗ atPos ER (ysendCell c 4) 1 ∅ 0
    ∗ atPos ER (yrecvCell c 0) 1 ∅ 0
    ∗ atPos ER (yrecvCell c 1) 1 ∅ 0
    ∗ atPos ER (yrecvCell c 2) 1 ∅ 0
    ∗ atPos ER (yrecvCell c 3) 1 ∅ 0
    ∗ atPos ER (yrecvCell c 4) 1 ∅ 0
    ∗ atPos ER (zsendCell c 0) 0 ∅ 0
    ∗ atPos ER (zsendCell c 1) 0 ∅ 0
    ∗ atPos ER (zsendCell c 2) 0 ∅ 0
    ∗ atPos ER (zrecvCell c 0) 0 ∅ 0
    ∗ atPos ER (zrecvCell c 1) 0 ∅ 0
    ∗ atPos ER (zrecvCell c 2) 0 ∅ 0
    ∗ cred (tallyAt (zsendCell c 0) () N)
    ∗ cred (tallyAt (zsendCell c 1) () N)
    ∗ cred (tallyAt (zsendCell c 2) () N)
    ∗ cred (tallyAt (zrecvCell c 0) () N)
    ∗ cred (tallyAt (zrecvCell c 1) () N)
    ∗ cred (tallyAt (zrecvCell c 2) () N))

theorem cd1 (K : Dev nD × Fin 17 → ℕ) (c : Dev nD) (v2 v5 v8 v9 v10 v11 v13 v14 : BitVec 32) (Kt : PUnit → sProp 𝕄) :
    iprop(stBC m K c ∗ (stD m K c -∗ wp frame (wpE (defs₀ (F := F)) 𝒱₀ c none) Set.univ (tailD c v2 v5 v8 v9 v10 v11 v13 v14) Kt))
      ⊢ wp frame (wpE (defs₀ (F := F)) 𝒱₀ c none) Set.univ (tailCD c v2 v5 v8 v9 v10 v11 v13 v14) Kt := by
  unfold tailCD
  generalize tailD (F := F) c v2 v5 v8 v9 v10 v11 v13 v14 = rest
  simp only [std, k0_part8_eq_skeleton, k0_part9_eq_skeleton, k0_part10_eq_skeleton]
  unfold k0_part8_skel k0_part9_skel k0_part10_skel
  simp only [Prog.lift, Prog.bind_op, Prog.bind_ret, Prog.pure_eq_ret]
  unfold stBC
  rw [localSems_eqCD, bigSep_fin5, bigSep_fin5, Ring.bigSep_fin3, Ring.bigSep_fin3, Ring.bigSep_fin3, Ring.bigSep_fin3, Ring.bigSep_fin3]
  iintro ⟨⟨#HR, #Hlev, ⟨%W, HO⟩, HX, ⟨%fI, HI, %hfI⟩, ⟨%fS0, HS0⟩,
    ⟨⟨%fB0, HB0⟩, ⟨%fB1, HB1⟩, ⟨%fB2, HB2⟩, ⟨%fB3, HB3⟩, ⟨%fB4, HB4⟩⟩,
    ⟨⟨%fo0, Ho0⟩, ⟨%fo1, Ho1⟩, ⟨%fo2, Ho2⟩, ⟨%fo3, Ho3⟩, ⟨%foX, HoX⟩⟩,
    HpZ, ⟨Hd0, Hd1, Hd2, Hd3, Hd4, Hq0, Hq1, Hq2, Hq3, Hq4⟩,
    HatB, HatYS0, ⟨HatYS1, HatYS2, HatYS3, HatYS4⟩, ⟨HatYR0, HatYR1, HatYR2, HatYR3, HatYR4⟩,
    ⟨HatZS0, HatZS1, HatZS2⟩, ⟨HatZR0, HatZR1, HatZR2⟩,
    ⟨HcYS1, HcYS2, HcYS3, HcYS4⟩, ⟨HcYR0, HcYR1, HcYR2, HcYR3, HcYR4⟩, ⟨HcZR0, HcZR1, HcZR2⟩,
    ⟨HtZR0, HtZR1, HtZR2⟩, ⟨HtZS0, HtZS1, HtZS2⟩⟩, Hk⟩

  unfold barPayZ
  icases HpZ with ⟨⟨%fz0, Hz0⟩, ⟨%fz1, Hz1⟩, ⟨%fz2, Hz2⟩⟩

  ihave #HIyr0 := (inv_YR m K c 0) $$ HR
  iapply (wp_waitCellCD m (K (c, iYR 0)) c (yrecvL 0) (yrecvPay m c 0) (expect_yrecv m c 0) (rest_yrecv m c 0) (dst := slot recvY 0) rfl (O6 c) _ (mayWait_cut c _ _ 2 (le_of_eq (lv_yrecv c 0)) (above_O6 c (by omega)))) $$ [HO HcYR0 HatYR0]
  · iframe # ∗
  iintro ⟨HO, HatYR0, Hp⟩
  unfold yrecvPay
  icases Hp with ⟨%fR0, HR0, %hfR0⟩
  set_option sl_exec.dmaWindow true in
  sl_exec
  have hB0 : SlotIs (cd1.sl.HB0_w1 c fI fB0 fR0) 0 (sumOf m c 0) := by
    sl_unfold_run_names
    exact sumSlot_isCD m c 0 _ _ (k0_off8_eq c) _ _ rfl k0_pay6 rfl fI (hfI 0) fR0 hfR0 fB0

  ihave #HIzs0 := (inv_ZS m K c 0) $$ HR
  ihave #HIzr0 := (inv_ZR m K (zn c) 0) $$ HR
  ihave #HRzs0 := (reached_ZS m K c 0) $$ HR
  ihave #HRzr0 := (reached_ZR m K (zn c) 0) $$ HR
  ihave Hh := (halve c (slot sumB 0) _) $$ HB0
  icases Hh with ⟨HB0l, HB0r⟩
  unfold O6
  iapply (wp_sendZ m K c _ (dev8_eq c) 0 _ fz0 hB0 (O7 c) _) $$ [HB0l Hz0 HO HtZS0 HtZR0]
  · iframe # ∗
    iexact HB0l
  iintro ⟨HcZS0, HO⟩
  set_option sl_exec.dmaWindow true in
  sl_exec

  ihave #HIys1 := (inv_YS m K c 1) $$ HR
  iapply (wp_waitCellCD m (K (c, iYS 1)) c (ysendL 1) (ysendPay c 1) (expect_ysend m c 1) (rest_ysend m c 1) (dst := slot sendY 1) rfl (O7 c) _ (mayWait_cut c _ _ 0 (le_of_eq (lv_low c _ (Or.inl (by decide)))) (above_O7 c (by omega)))) $$ [HO HcYS1 HatYS1]
  · iframe # ∗
  iintro ⟨HO, HatYS1, HpS1⟩

  ihave #HIyr1 := (inv_YR m K c 1) $$ HR
  iapply (wp_waitCellCD m (K (c, iYR 1)) c (yrecvL 1) (yrecvPay m c 1) (expect_yrecv m c 1) (rest_yrecv m c 1) (dst := slot recvY 1) rfl (O7 c) _ (mayWait_cut c _ _ 2 (le_of_eq (lv_yrecv c 1)) (above_O7 c (by omega)))) $$ [HO HcYR1 HatYR1]
  · iframe # ∗
  iintro ⟨HO, HatYR1, Hp⟩
  unfold yrecvPay
  icases Hp with ⟨%fR1, HR1, %hfR1⟩
  set_option sl_exec.dmaWindow true in
  sl_exec
  have hB1 : SlotIs (cd1.sl.HB1_w1 c fI fB1 fR1) 1 (sumOf m c 1) := by
    sl_unfold_run_names
    exact sumSlot_isCD m c 1 _ _ (k0_off10_eq c) _ _ rfl k0_pay7 pay7_eq fI (hfI 1) fR1 hfR1 fB1

  ihave #HIzs1 := (inv_ZS m K c 1) $$ HR
  ihave #HIzr1 := (inv_ZR m K (zn c) 1) $$ HR
  ihave #HRzs1 := (reached_ZS m K c 1) $$ HR
  ihave #HRzr1 := (reached_ZR m K (zn c) 1) $$ HR
  ihave Hh := (halve c (slot sumB 1) _) $$ HB1
  icases Hh with ⟨HB1l, HB1r⟩
  unfold O7
  iapply (wp_sendZ m K c _ (dev9_eq c) 1 _ fz1 hB1 (O8 c) _) $$ [HB1l Hz1 HO HtZS1 HtZR1]
  · iframe # ∗
    iexact HB1l
  iintro ⟨HcZS1, HO⟩
  set_option sl_exec.dmaWindow true in
  sl_exec
  iapply Hk
  unfold stD copying
  iframe # ∗
  isplitl [HO]; · (iexists _; iexact HO)
  isplitl [HI]; · (iexists fI; isplitl [HI]; iexact HI; ipureintro; exact hfI)
  isplitl [HS0]; · (iexists fS0; iexact HS0)
  isplitl [HR0]; · (iexists fR0; iexact HR0)
  isplitl [HR1]; · (iexists fR1; iexact HR1)
  isplitl [Hq0]; · (iexists fo0, (cd1.sl.HB0_w1 c fI fB0 fR0); isplitl [Hq0]; iexact Hq0; ipureintro; exact hB0)
  isplitl [Hq1]; · (iexists fo1, (cd1.sl.HB1_w1 c fI fB1 fR1); isplitl [Hq1]; iexact Hq1; ipureintro; exact hB1)
  isplitl [HB2]; · (iexists fB2; iexact HB2)
  isplitl [HB3]; · (iexists fB3; iexact HB3)
  isplitl [HB4]; · (iexists fB4; iexact HB4)
  isplitl [Ho2]; · (iexists fo2; iexact Ho2)
  isplitl [Ho3]; · (iexists fo3; iexact Ho3)
  isplitl [HoX]; · (iexists foX; iexact HoX)
  iexists fz2; iexact Hz2

theorem cd2 (K : Dev nD × Fin 17 → ℕ) (c : Dev nD) (v2 v5 v8 v9 v10 v11 v13 v14 : BitVec 32) (Kt : PUnit → sProp 𝕄) :
    iprop(stD m K c ∗ (stE m K c -∗ wp frame (wpE (defs₀ (F := F)) 𝒱₀ c none) Set.univ (tailE c v2 v5 v8 v9 v10 v11 v13 v14) Kt))
      ⊢ wp frame (wpE (defs₀ (F := F)) 𝒱₀ c none) Set.univ (tailD c v2 v5 v8 v9 v10 v11 v13 v14) Kt := by
  unfold tailD
  generalize tailE (F := F) c v2 v5 v8 v9 v10 v11 v13 v14 = rest
  simp only [std, k0_part11_eq_skeleton, k0_part12_eq_skeleton, k0_part13_eq_skeleton, k0_part14_eq_skeleton]
  unfold k0_part11_skel k0_part12_skel k0_part13_skel k0_part14_skel
  simp only [Prog.lift, Prog.bind_op, Prog.bind_ret, Prog.pure_eq_ret]
  unfold stD copying
  iintro ⟨⟨#HR, #Hlev, ⟨%W, HO⟩, HX, ⟨%fI, HI, %hfI⟩, HS0e, HpS1, HR0e, HR1e, HF0e, HF1e, ⟨%fB2, HB2⟩, ⟨%fB3, HB3⟩, ⟨%fB4, HB4⟩, ⟨%fo2, Ho2⟩, ⟨%fo3, Ho3⟩, ⟨%foX, HoX⟩, ⟨%fz2, Hz2⟩, Hd0, Hd1, Hd2, Hd3, Hd4, Hq2, Hq3, Hq4, HatB, HatYS0, HatYS1, HatYS2, HatYS3, HatYS4, HatYR0, HatYR1, HatYR2, HatYR3, HatYR4, HatZS0, HatZS1, HatZS2, HatZR0, HatZR1, HatZR2, HcYS2, HcYS3, HcYS4, HcYR2, HcYR3, HcYR4, HcZR0, HcZR1, HcZR2, HcZS0, HcZS1, HtZR2, HtZS2⟩, Hk⟩

  ihave #HIys2 := (inv_YS m K c 2) $$ HR
  iapply (wp_waitCellCD m (K (c, iYS 2)) c (ysendL 2) (ysendPay c 2) (expect_ysend m c 2) (rest_ysend m c 2) (dst := slot sendY 2) rfl (O8 c) _ (mayWait_cut c _ _ 0 (le_of_eq (lv_low c _ (Or.inl (by decide)))) (above_O8 c (by omega)))) $$ [HO HcYS2 HatYS2]
  · iframe # ∗
  iintro ⟨HO, HatYS2, HpS2⟩

  ihave #HIyr2 := (inv_YR m K c 2) $$ HR
  iapply (wp_waitCellCD m (K (c, iYR 2)) c (yrecvL 2) (yrecvPay m c 2) (expect_yrecv m c 2) (rest_yrecv m c 2) (dst := slot recvY 2) rfl (O8 c) _ (mayWait_cut c _ _ 2 (le_of_eq (lv_yrecv c 2)) (above_O8 c (by omega)))) $$ [HO HcYR2 HatYR2]
  · iframe # ∗
  iintro ⟨HO, HatYR2, Hp⟩
  unfold yrecvPay
  icases Hp with ⟨%fR2, HR2, %hfR2⟩
  set_option sl_exec.dmaWindow true in
  sl_exec
  have hB2 : SlotIs (cd2.sl.HB2_w1 c fI fB2 fR2) 2 (sumOf m c 2) := by
    sl_unfold_run_names
    exact sumSlot_isCD m c 2 _ _ (k0_off11_eq c) _ _ rfl k0_pay8 pay8_eq fI (hfI 2) fR2 hfR2 fB2

  ihave #HIzs2 := (inv_ZS m K c 2) $$ HR
  ihave #HIzr2 := (inv_ZR m K (zn c) 2) $$ HR
  ihave #HRzs2 := (reached_ZS m K c 2) $$ HR
  ihave #HRzr2 := (reached_ZR m K (zn c) 2) $$ HR
  ihave Hh := (halve c (slot sumB 2) _) $$ HB2
  icases Hh with ⟨HB2l, HB2r⟩
  unfold O8
  iapply (wp_sendZ m K c _ (dev10_eq c) 2 _ fz2 hB2 (0) _) $$ [HB2l Hz2 HO HtZS2 HtZR2]
  · iframe # ∗
    iexact HB2l
  iintro ⟨HcZS2, HO⟩
  set_option sl_exec.dmaWindow true in
  sl_exec

  ihave #HIys3 := (inv_YS m K c 3) $$ HR
  iapply (wp_waitCellCD m (K (c, iYS 3)) c (ysendL 3) (ysendPay c 3) (expect_ysend m c 3) (rest_ysend m c 3) (dst := slot sendY 3) rfl (0) _ (mayWait_nil c _)) $$ [HO HcYS3 HatYS3]
  · iframe # ∗
  iintro ⟨HO, HatYS3, HpS3⟩

  ihave #HIyr3 := (inv_YR m K c 3) $$ HR
  iapply (wp_waitCellCD m (K (c, iYR 3)) c (yrecvL 3) (yrecvPay m c 3) (expect_yrecv m c 3) (rest_yrecv m c 3) (dst := slot recvY 3) rfl (0) _ (mayWait_nil c _)) $$ [HO HcYR3 HatYR3]
  · iframe # ∗
  iintro ⟨HO, HatYR3, Hp⟩
  unfold yrecvPay
  icases Hp with ⟨%fR3, HR3, %hfR3⟩
  set_option sl_exec.dmaWindow true in
  sl_exec
  have hB3 : SlotIs (cd2.sl.HB3_w1 c fI fB3 fR3) 3 (sumOf m c 3) := by
    sl_unfold_run_names
    exact sumSlot_isCD m c 3 _ _ (k0_off12_eq c) _ _ rfl k0_pay9 pay9_eq fI (hfI 3) fR3 hfR3 fB3

  ihave #HIys4 := (inv_YS m K c 4) $$ HR
  iapply (wp_waitCellCD m (K (c, iYS 4)) c (ysendL 4) (ysendPay c 4) (expect_ysend m c 4) (rest_ysend m c 4) (dst := slot sendY 4) rfl (0) _ (mayWait_nil c _)) $$ [HO HcYS4 HatYS4]
  · iframe # ∗
  iintro ⟨HO, HatYS4, HpS4⟩

  ihave #HIyr4 := (inv_YR m K c 4) $$ HR
  iapply (wp_waitCellCD m (K (c, iYR 4)) c (yrecvL 4) (yrecvPay m c 4) (expect_yrecv m c 4) (rest_yrecv m c 4) (dst := slot recvY 4) rfl (0) _ (mayWait_nil c _)) $$ [HO HcYR4 HatYR4]
  · iframe # ∗
  iintro ⟨HO, HatYR4, Hp⟩
  unfold yrecvPay
  icases Hp with ⟨%fR4, HR4, %hfR4⟩
  set_option sl_exec.dmaWindow true in
  sl_exec
  have hB4 : SlotIs (cd2.sl.HB4_w1 c fI fB4 fR4) 4 (sumOf m c 4) := by
    sl_unfold_run_names
    exact sumSlot_isCD m c 4 _ _ (k0_off13_eq c) _ _ rfl k0_pay10 pay10_eq fI (hfI 4) fR4 hfR4 fB4
  iapply Hk
  unfold stE copying
  iframe # ∗
  isplitl [HO]; · (iexists _; iexact HO)
  isplitl [HI]; · (unfold scr; iexists fI; iexact HI)
  isplitl [HR2]; · (iexists fR2; iexact HR2)
  isplitl [HR3]; · (iexists fR3; iexact HR3)
  isplitl [HR4]; · (iexists fR4; iexact HR4)
  isplitl [Hq2]; · (iexists fo2, (cd2.sl.HB2_w1 c fI fB2 fR2); isplitl [Hq2]; iexact Hq2; ipureintro; exact hB2)
  isplitl [Hq3]; · (iexists fo3, (cd2.sl.HB3_w1 c fI fB3 fR3); isplitl [Hq3]; iexact Hq3; ipureintro; exact hB3)
  iexists foX, (cd2.sl.HB4_w1 c fI fB4 fR4); isplitl [Hq4]; iexact Hq4; ipureintro; exact hB4

theorem cd3 (K : Dev nD × Fin 17 → ℕ) (c : Dev nD) (v2 v5 v8 v9 v10 v11 v13 v14 : BitVec 32) (Kt : PUnit → sProp 𝕄) :
    iprop(stE m K c ∗ ((Φ₁ m c ∗ ∃ W, owes (c : Thread nD τ) 0 W) -∗ Kt ⟨⟩))
      ⊢ wp frame (wpE (defs₀ (F := F)) 𝒱₀ c none) Set.univ (tailE c v2 v5 v8 v9 v10 v11 v13 v14) Kt := by
  unfold tailE
  simp only [std, k0_part15_eq_skeleton, k0_part16_eq_skeleton]
  unfold k0_part15_skel k0_part16_skel
  simp only [Prog.lift, Prog.bind_op, Prog.bind_ret, Prog.pure_eq_ret]
  unfold stE copying
  iintro ⟨⟨#HR, #Hlev, ⟨%W, HO⟩, HX, HIs, HS0e, HpS1, HpS2, HpS3, HpS4, HR0e, HR1e, HR2e, HR3e, HR4e, ⟨%fo0, %fs0, Hq0, %hB0⟩, ⟨%fo1, %fs1, Hq1, %hB1⟩, ⟨%fo2, %fs2, Hq2, %hB2⟩, ⟨%fo3, %fs3, Hq3, %hB3⟩, ⟨%foX, %fs4, Hq4, %hB4⟩, Hd0, Hd1, Hd2, Hd3, Hd4, HatB, HatYS0, HatYS1, HatYS2, HatYS3, HatYS4, HatYR0, HatYR1, HatYR2, HatYR3, HatYR4, HatZS0, HatZS1, HatZS2, HatZR0, HatZR1, HatZR2, HcZS0, HcZS1, HcZS2, HcZR0, HcZR1, HcZR2⟩, HK⟩
  set_option sl_exec.dmaWindow true in
  sl_exec
  ihave #HIzs0 := (inv_ZS m K c 0) $$ HR
  ihave #HIzs1 := (inv_ZS m K c 1) $$ HR
  ihave #HIzs2 := (inv_ZS m K c 2) $$ HR

  iapply (wp_waitCellCD m (K (c, iZS 0)) c (zsendL 0) (zsendPay c 0) (expect_zsend m c 0) (rest_zsend m c 0) (dst := slot sumB 0) rfl 0 _ (mayWait_nil c _)) $$ [HO HcZS0 HatZS0]
  · iframe # ∗
  iintro ⟨HO, HatZS0, HpZS0⟩

  ihave #HIzrc0 := (inv_ZR m K c 0) $$ HR
  iapply (wp_waitCellCD m (K (c, iZR 0)) c (zrecvL 0) (zrecvPay m c 0) (expect_zrecv m c 0) (rest_zrecv m c 0) (dst := outSl c 0) rfl 0 _ (mayWait_nil c _)) $$ [HO HcZR0 HatZR0]
  · iframe # ∗
  iintro ⟨HO, HatZR0, HpZR0⟩

  iapply (wp_waitCellCD m (K (c, iZS 1)) c (zsendL 1) (zsendPay c 1) (expect_zsend m c 1) (rest_zsend m c 1) (dst := slot sumB 1) rfl 0 _ (mayWait_nil c _)) $$ [HO HcZS1 HatZS1]
  · iframe # ∗
  iintro ⟨HO, HatZS1, HpZS1⟩

  ihave #HIzrc1 := (inv_ZR m K c 1) $$ HR
  iapply (wp_waitCellCD m (K (c, iZR 1)) c (zrecvL 1) (zrecvPay m c 1) (expect_zrecv m c 1) (rest_zrecv m c 1) (dst := outSl c 1) rfl 0 _ (mayWait_nil c _)) $$ [HO HcZR1 HatZR1]
  · iframe # ∗
  iintro ⟨HO, HatZR1, HpZR1⟩

  iapply (wp_waitCellCD m (K (c, iZS 2)) c (zsendL 2) (zsendPay c 2) (expect_zsend m c 2) (rest_zsend m c 2) (dst := slot sumB 2) rfl 0 _ (mayWait_nil c _)) $$ [HO HcZS2 HatZS2]
  · iframe # ∗
  iintro ⟨HO, HatZS2, HpZS2⟩

  ihave #HIzrc2 := (inv_ZR m K c 2) $$ HR
  iapply (wp_waitCellCD m (K (c, iZR 2)) c (zrecvL 2) (zrecvPay m c 2) (expect_zrecv m c 2) (rest_zrecv m c 2) (dst := outSl c 2) rfl 0 _ (mayWait_nil c _)) $$ [HO HcZR2 HatZR2]
  · iframe # ∗
  iintro ⟨HO, HatZR2, HpZR2⟩
  rw [wp_ret]
  unfold ysendPay zsendPay
  imod (end_post m K c) $$ [Hd0 Hd1 Hd2 Hd3 Hd4 Hq0 Hq1 Hq2 Hq3 Hq4 HatYS0 HatYS1 HatYS2 HatYS3 HatYS4 HatYR0 HatYR1 HatYR2 HatYR3 HatYR4 HatZS0 HatZS1 HatZS2 HatZR0 HatZR1 HatZR2 HIs HS0e HpS1 HpS2 HpS3 HpS4 HR0e HR1e HR2e HR3e HR4e HpZS0 Hq0_src HpZS1 Hq1_src HpZS2 Hq2_src Hq3_src Hq4_src HX Hq0_dst Hq1_dst Hq2_dst Hq3_dst Hq4_dst HpZR0 HpZR1 HpZR2] with HΦ
  · unfold endCD outDone
    iframe # ∗
    isplitl [HpZS0 Hq0_src HpZS1 Hq1_src HpZS2 Hq2_src Hq3_src Hq4_src]
    · (
      isplitl [HpZS0 Hq0_src]
      · (isplitl [HpZS0]; iexact HpZS0; iexists fs0; iexact Hq0_src)
      isplitl [HpZS1 Hq1_src]
      · (isplitl [HpZS1]; iexact HpZS1; iexists fs1; iexact Hq1_src)
      isplitl [HpZS2 Hq2_src]
      · (isplitl [HpZS2]; iexact HpZS2; iexists fs2; iexact Hq2_src)
      isplitl [Hq3_src]; · (iexists fs3; iexact Hq3_src)
      iexists fs4; iexact Hq4_src
      )
    isplitl [Hq0_dst]
    · (unfold rowsDone; iexists _; isplitl [Hq0_dst]; iexact Hq0_dst; ipureintro; exact rows_isCD c 0 0 fo0 fs0 (sumOf m c 0) hB0 _ rfl)
    isplitl [Hq1_dst]
    · (unfold rowsDone; iexists _; isplitl [Hq1_dst]; iexact Hq1_dst; ipureintro; exact rows_isCD c 1 1 fo1 fs1 (sumOf m c 1) hB1 _ rfl)
    isplitl [Hq2_dst]
    · (unfold rowsDone; iexists _; isplitl [Hq2_dst]; iexact Hq2_dst; ipureintro; exact rows_isCD c 2 2 fo2 fs2 (sumOf m c 2) hB2 _ rfl)
    isplitl [Hq3_dst]
    · (unfold rowsDone; iexists _; isplitl [Hq3_dst]; iexact Hq3_dst; ipureintro; exact rows_isCD c 3 3 fo3 fs3 (sumOf m c 3) hB3 _ rfl)
    isplitl [Hq4_dst]
    · (unfold rowsDoneX; iexists _; isplitl [Hq4_dst]; iexact Hq4_dst; ipureintro; exact rowsX_isCD c 4 foX fs4 (sumOf m c 4) hB4 _ rfl)
    isplitl [HpZR0]; · (rw [← zrecvPay_rows0CD m c]; iexact HpZR0)
    isplitl [HpZR1]; · (rw [← zrecvPay_rows1CD m c]; iexact HpZR1)
    rw [← zrecvPay_rows2CD m c]; iexact HpZR2
  imodintro
  iapply HK
  isplitl [HΦ]; · iexact HΦ
  iexists _; iexact HO

theorem body_CD (K : Dev nD × Fin 17 → ℕ) (c : Dev nD) (v2 v5 v8 v9 v10 v11 v13 v14 : BitVec 32) (Kt : PUnit → sProp 𝕄) :
    iprop(stBC m K c ∗ ((Φ₁ m c ∗ ∃ W, owes (c : Thread nD τ) 0 W) -∗ Kt ⟨⟩))
      ⊢ wp frame (wpE (defs₀ (F := F)) 𝒱₀ c none) Set.univ (tailCD c v2 v5 v8 v9 v10 v11 v13 v14) Kt := by
  iintro ⟨Hst, HK⟩
  iapply (cd1 m K c v2 v5 v8 v9 v10 v11 v13 v14 Kt)
  isplitl [Hst]; · iexact Hst
  iintro HD
  iapply (cd2 m K c v2 v5 v8 v9 v10 v11 v13 v14 Kt)
  isplitl [HD]; · iexact HD
  iintro HE
  iapply (cd3 m K c v2 v5 v8 v9 v10 v11 v13 v14 Kt)
  isplitl [HE]; · iexact HE
  iexact HK

end Cert.KernelIdeal.RS

end
-- ==== Proof.BodyTop.lean ====
import proofs.«901023_g7700000000001024_dist_rs_v7x_xyz2x2x2_y_m1024_n512_bf16_1_alg».proof.Proof.Geom
import proofs.«901023_g7700000000001024_dist_rs_v7x_xyz2x2x2_y_m1024_n512_bf16_1_alg».proof.Proof.Mid

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ)

/-- One witness serves the head conjunct; chained, a split of a whole buffer becomes ownership of each piece at some contents. -/
theorem ex_sep {α : Type} {Φ : α → sProp 𝕄} {P Q : sProp 𝕄} (a : α) (h : P ⊢ Q) : iprop(Φ a ∗ P) ⊢ iprop((∃ a, Φ a) ∗ Q) :=
  BIClass.sep_mono (exists_intro a) h

theorem slots_of_whole (b : Memref sig .tc .vmem S5x128x512 .bf16) (hb : b.view.set = Finset.univ) (c : Dev nD) :
    (iprop(∃ f, b.view.loc (c : Thread nD τ) ↦{fullShare} f) : sProp 𝕄)
      ⊢ iprop((∃ f, slotPts b fullShare c 0 f) ∗ (∃ f, slotPts b fullShare c 1 f) ∗ (∃ f, slotPts b fullShare c 2 f)
        ∗ (∃ f, slotPts b fullShare c 3 f) ∗ (∃ f, slotPts b fullShare c 4 f)) :=
  exists_elim fun f => (split5 (F := F) b hb c f).trans <| ex_sep f <| ex_sep f <| ex_sep f <| ex_sep f (exists_intro f)

theorem rows_of_whole (c : Dev nD) (f : Buf (Elt F) (oA.view.loc (c : Thread nD τ))) :
    (oA.view.loc (c : Thread nD τ) ↦{fullShare} f : sProp 𝕄)
      ⊢ iprop((∃ f, rowsPts c (outSl c 0) f) ∗ (∃ f, rowsPts c (outSl c 1) f) ∗ (∃ f, rowsPts c (outSl c 2) f) ∗ (∃ f, rowsPts c (outSl c 3) f)
        ∗ (∃ f, rowsPts c (outSlX c) f)
        ∗ (∃ f, rowsPts c (outSl (zn c) 0) f) ∗ (∃ f, rowsPts c (outSl (zn c) 1) f) ∗ (∃ f, rowsPts c (outSl (zn c) 2) f)) :=
  (split8 (F := F) c f).trans <| ex_sep f <| ex_sep f <| ex_sep f <| ex_sep f <| ex_sep f <| ex_sep f <| ex_sep f (exists_intro f)

theorem atPos_cells (c : Dev nD) :
    (bigSep Finset.univ fun i : Fin 17 => (atPos ER (kcell (c, i)) 0 ∅ 0 : sProp 𝕄))
      = iprop(atPos ER (barCell c) 0 ∅ 0 ∗ (bigSep Finset.univ fun k : Fin 5 => atPos ER (ysendCell c k) 0 ∅ 0)
        ∗ (bigSep Finset.univ fun k : Fin 5 => atPos ER (yrecvCell c k) 0 ∅ 0)
        ∗ (bigSep Finset.univ fun k : Fin 3 => atPos ER (zsendCell c k) 0 ∅ 0)
        ∗ (bigSep Finset.univ fun k : Fin 3 => atPos ER (zrecvCell c k) 0 ∅ 0)) := by
  rw [bigSep_cells]; simp only [kcell_B, kcell_YS, kcell_YR, kcell_ZS, kcell_ZR]

def semKind : Fin 5 ⊕ Fin 5 → Fin 10 := Sum.elim (fun k => ⟨k.val, by omega⟩) (fun k => ⟨5 + k.val, by omega⟩)
theorem semKind_bij : Function.Bijective semKind := by decide

theorem localSems_eq (c : Dev nD) :
    (localSems c : sProp 𝕄)
      = iprop((semVal (lsem c (dsemL 0)) 0 ∗ semVal (lsem c (dsemL 1)) 0 ∗ semVal (lsem c (dsemL 2)) 0 ∗ semVal (lsem c (dsemL 3)) 0 ∗ semVal (lsem c (dsemL 4)) 0)
        ∗ (semVal (lsem c (osemL 0)) 0 ∗ semVal (lsem c (osemL 1)) 0 ∗ semVal (lsem c (osemL 2)) 0 ∗ semVal (lsem c (osemL 3)) 0 ∗ semVal (lsem c (osemL 4)) 0)) := by
  unfold localSems
  rw [bigSep_univ_equiv (Equiv.ofBijective semKind semKind_bij), bigSep_univ_sum, bigSep_fin5, bigSep_fin5]
  rfl

abbrev t0 : Fin cfg0.N := t0_0

theorem pre_intro_full (c : Dev nD) :
    iprop(Φ₀ m c ∗ (dats (F := F) m 0 c).owesAt () t0.castSucc)
      ⊢ iprop(∃ K, (preAB m K c ∗ passAB c) ∗ records m K ∗ levAts L lv) := by
  unfold Φ₀ start scr linear payToks creds Dat.owesAt Pipeline.owesWithin preAB passAB barPayY barPayZ
  rw [atPos_cells, localSems_eq, yp_yp, zn_zn, show (dats (F := F) m 0 c).owed t0.castSucc = O₀ c from rfl]
  iintro ⟨⟨⟨⟨%K, #HR, ⟨HaB, HaYS, HaYR, HaZS, HaZR⟩, HtBy, HtBz, HtYR, HtZR, HtYS, HtZS⟩, ⟨HcB, HcYR, HcZR⟩, #Hlev,
    ⟨Hds, Hos⟩, HX, HV⟩, Hs0, Hs1, Hs2, Hs3⟩, ⟨%W, -, HO⟩⟩
  ihave HS := (slots_of_whole (F := F) sendY sendY_set c) $$ Hs1
  ihave HRv := (slots_of_whole (F := F) recvY recvY_set c) $$ Hs2
  ihave HSm := (slots_of_whole (F := F) sumB sumB_set c) $$ Hs3
  ihave HRows := (rows_of_whole (F := F) c _) $$ HV
  icases HRows with ⟨R0, R1, R2, R3, R4, HpZ⟩
  ihave HtYR := (Entails.of_eq (bigSep_fin5 _)) $$ HtYR
  ihave HtYS := (Entails.of_eq (bigSep_fin5 _)) $$ HtYS
  ihave HaYS := (Entails.of_eq (bigSep_fin5 _)) $$ HaYS
  iexists K
  iframe # ∗
  iexists W; iexact HO

theorem mid_outro (K : Dev nD × Fin 17 → ℕ) (c : Dev nD) :
    iprop(midAB m K c ∗ passAB c ∗ records m K ∗ levAts L lv) ⊢ stBC m K c := by
  unfold midAB passAB stBC
  rw [localSems_eq]
  iintro ⟨⟨HO, HX, HI, HS0, HpZ, Hds, HaB, HaS0, HaS, HcS⟩, ⟨HSm, Hown, Hos, HaYR, HaZS, HaZR, HcYR, HcZR, HtZR, HtZS⟩, #HR, #Hlev⟩
  iframe # ∗

abbrev FirstHalf : Prop :=
  ∀ (K : Dev nD × Fin 17 → ℕ) (c : Dev nD) (Kt : PUnit → sProp 𝕄) (P : sProp 𝕄),
    iprop(preAB m K c ∗ P ∗ ((midAB m K c ∗ P) -∗ wp frame (wpE (defs₀ (F := F)) 𝒱₀ c none) Set.univ
        (tailCD (F := F) c (wx c) (wy c) (wz c) (Scalar.subi 1#32 (wy c)) (Scalar.subi 1#32 (wz c)) (Scalar.muli (wz c) 512#32)
          (Scalar.muli (Scalar.subi 1#32 (wz c)) 512#32) (Scalar.muli (wy c) 512#32)) Kt))
      ⊢ wp frame (wpE (defs₀ (F := F)) 𝒱₀ c none) Set.univ (bodyAt0 (F := F) t0) Kt

abbrev SecondHalf : Prop :=
  ∀ (K : Dev nD × Fin 17 → ℕ) (c : Dev nD) (v2 v5 v8 v9 v10 v11 v13 v14 : BitVec 32) (Kt : PUnit → sProp 𝕄),
    iprop(stBC m K c ∗ ((Φ₁ m c ∗ ∃ W, owes (c : Thread nD τ) 0 W) -∗ Kt ⟨⟩))
      ⊢ wp frame (wpE (defs₀ (F := F)) 𝒱₀ c none) Set.univ (tailCD (F := F) c v2 v5 v8 v9 v10 v11 v13 v14) Kt

theorem body_obligation (hAB : FirstHalf m) (hCD : SecondHalf m) (c : Dev nD) :
    BodyObligation (dats (F := F) m 0 c) (defs₀ (F := F)) 𝒱₀ () Set.univ := fun t => by
  rw [fin_N0 t]
  rw [bigSep_univ_eq_bigSepL [] (by decide) (by decide), bigSep_univ_eq_bigSepL [] (by decide) (by decide)]
  show iprop(Φ₀ m c ∗ (dats (F := F) m 0 c).owesAt () t0.castSucc ∗ emp)
    ⊢ wp frame (wpE (defs₀ (F := F)) 𝒱₀ c none) Set.univ (bodyAt0 (F := F) t0)
        (fun _ => iprop(Φ₁ m c ∗ (dats (F := F) m 0 c).owesAt () t0.succ ∗ emp))
  iintro ⟨HΦ, Ho, -⟩
  ihave Hpre := (pre_intro_full m c) $$ [HΦ Ho]
  · iframe
  icases Hpre with ⟨%K, ⟨Hpre, Hpass⟩, #HR, #Hlev⟩
  iapply (hAB K c _ iprop(passAB c ∗ records m K ∗ levAts L lv))
  iframe # ∗
  iintro ⟨Hmid, Hrest⟩
  iapply (hCD K c _ _ _ _ _ _ _ _ _)
  isplitl [Hmid Hrest]
  · iapply (mid_outro m K c); iframe
  · iintro ⟨HΦ1, %W, HO⟩
    iframe
    isplitl
    · iexists W
      isplitr; · ipureintro; exact fun _ _ => Or.inl trivial
      iexact HO
    · iempintro

end Cert.KernelIdeal.RS

end
-- ==== Proof.Body.lean ====
import proofs.«901023_g7700000000001024_dist_rs_v7x_xyz2x2x2_y_m1024_n512_bf16_1_alg».proof.Proof.BodyAB
import proofs.«901023_g7700000000001024_dist_rs_v7x_xyz2x2x2_y_m1024_n512_bf16_1_alg».proof.Proof.BodyCD
import proofs.«901023_g7700000000001024_dist_rs_v7x_xyz2x2x2_y_m1024_n512_bf16_1_alg».proof.Proof.BodyTop

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

theorem body (c : Dev nD) : BodyObligation (dats (F := F) m 0 c) (defs₀ (F := F)) 𝒱₀ () Set.univ :=
  body_obligation m (fun K c Kt P => body_AB m K c Kt P)
    (fun K c v2 v5 v8 v9 v10 v11 v13 v14 Kt => body_CD m K c v2 v5 v8 v9 v10 v11 v13 v14 Kt) c

end Cert.KernelIdeal.RS

end
-- ==== Proof.Launch.lean ====
import proofs.«901023_g7700000000001024_dist_rs_v7x_xyz2x2x2_y_m1024_n512_bf16_1_alg».proof.Proof.Ghost
import proofs.«901023_g7700000000001024_dist_rs_v7x_xyz2x2x2_y_m1024_n512_bf16_1_alg».proof.Proof.Geom

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]
local notation "𝕄" => MT nD τ sig Unit (Elt F) ℕ UU ℕ

variable (m : (ℓ : Loc nD τ sig) → Buf (Elt F) ℓ) (ρ : Dev nD → PrngReg)

abbrev osem : DmaSem sig → SemLoc sig := SemLoc.dma

theorem ownSemFacts : Pipeline.OwnSemFacts cfg0.spec osem :=
  ⟨by decide, fun a b h => SemLoc.dma.inj h, fun k w => w.elim0⟩

theorem share_eq (c : Dev nD) (w : Fin cfg0.W) : (dats m 0 c).share w = fullShare := w.elim0

theorem csem_injective : Function.Injective csem := by decide

theorem kcell_injective : Function.Injective (kcell : Dev nD × Fin 17 → GSem nD τ sig) := by
  rintro ⟨c, k⟩ ⟨c', k'⟩ h
  have h1 : c = c' := congrArg (fun g : GSem nD τ sig => g.1.1) h
  subst h1
  exact congrArg (Prod.mk c) (csem_injective (congrArg Prod.snd h))

def ringCells : Finset (GSem nD τ sig) := Finset.univ.map ⟨kcell, kcell_injective⟩

abbrev tokOf (cj : Dev nD × (Fin 17 ⊕ Unit)) : GSem nD τ sig × ℕ × Bool := match cj.2 with
  | .inl i => (kcell (cj.1, i), 0, false)
  | .inr _ => (barCell cj.1, 0, true)

theorem tokOf_injective : Function.Injective (tokOf : Dev nD × (Fin 17 ⊕ Unit) → GSem nD τ sig × ℕ × Bool) := by
  rintro ⟨c, i | u⟩ ⟨c', i' | u'⟩ h
  · cases kcell_injective (congrArg (·.1) h); rfl
  · cases congrArg (·.2.2) h
  · cases congrArg (·.2.2) h
  · cases (congrArg (·.1.1.1) h : c = c'); rfl

def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

def toks (c : Dev nD) : sProp 𝕄 :=
  iprop((bigSep Finset.univ fun i : Fin 17 => dutyTok ER (kcell (c, i)) 0 false) ∗ dutyTok ER (barCell c) 0 true)

def G (c : Dev nD) : sProp 𝕄 :=
  iprop((bigSep Finset.univ fun i : Fin 17 => roundState ER (Rd m) (kcell (c, i)) 0)
    ∗ (bigSep Finset.univ fun i : Fin 17 => iprop(atPos ER (kcell (c, i)) 0 ∅ 0 ∗ reached ER (kcell (c, i)) 0)) ∗ toks c)

def G' (c : Dev nD) : sProp 𝕄 := iprop((∃ K, records m K ∗ linear c) ∗ localSems c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : Fin 17 => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_of_subsingleton ()]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

theorem own_ER (b : UB) : (BI.own (embR (b, (1 : Counters))) : sProp 𝕄) ⊢ BI.own (ER b) := .rfl

abbrev own0 (c : Dev nD) : sProp 𝕄 := Pipeline.ownSems0 osem c

theorem unscopedSems0_eq (c : Dev nD) : (unscopedSems0 c : sProp 𝕄) = semVal (barCell c) 0 := by
  unfold unscopedSems0; rw [bigSep_eq_bigSepL_of_eq [SemLoc.reg barS] (by decide) (by decide)]; rfl

def e26 : Fin 10 ⊕ Fin 16 → DmaSem sig :=
  Sum.elim (fun j => ⟨j.val, by have := j.isLt; rw [nDma]; omega⟩) (fun i => ⟨10 + i.val, by have := i.isLt; rw [nDma]; omega⟩)
theorem e26_bij : Function.Bijective e26 := by decide

def e17s : Unit ⊕ Fin 16 → Fin 17 := Sum.elim (fun _ => 0) (fun i => ⟨1 + i.val, by omega⟩)
theorem e17s_bij : Function.Bijective e17s := by decide

theorem kcell_succ (c : Dev nD) (i : Fin 16) : kcell (c, e17s (.inr i)) = ((c : Thread nD τ), SemLoc.dma (e26 (.inr i))) := by
  show ((c : Thread nD τ), csem ⟨1 + i.val, _⟩) = _
  unfold csem; rw [if_neg (by show ¬ (1 + i.val = 0); omega)]
  exact congrArg _ (congrArg SemLoc.dma (Fin.ext (by show 9 + (1 + i.val) = 10 + i.val; omega)))

theorem sems0_eq (c : Dev nD) :
    iprop(own0 (F := F) c ∗ unscopedSems0 c)
      ⊢ iprop((bigSep Finset.univ fun i : Fin 17 => semVal (kcell (c, i)) 0) ∗ localSems c) := by
  have h1 : (own0 (F := F) c : sProp 𝕄)
      = iprop((bigSep Finset.univ fun j : Fin 10 => semVal ((c : Thread nD τ), SemLoc.dma (e26 (.inl j))) 0)
        ∗ bigSep Finset.univ fun i : Fin 16 => semVal ((c : Thread nD τ), SemLoc.dma (e26 (.inr i))) 0) := by
    unfold own0 Pipeline.ownSems0; rw [bigSep_univ_equiv (Equiv.ofBijective e26 e26_bij), bigSep_univ_sum]; rfl
  have h2 : (bigSep Finset.univ fun i : Fin 17 => (semVal (kcell (c, i)) 0 : sProp 𝕄))
      = iprop(semVal (barCell c) 0 ∗ bigSep Finset.univ fun i : Fin 16 => semVal (kcell (c, e17s (.inr i))) 0) := by
    rw [bigSep_univ_equiv (Equiv.ofBijective e17s e17s_bij), bigSep_univ_sum, bigSep_univ_of_subsingleton ()]; rfl
  have hk : (fun i : Fin 16 => (semVal (kcell (c, e17s (.inr i))) 0 : sProp 𝕄)) = fun i => semVal ((c : Thread nD τ), SemLoc.dma (e26 (.inr i))) 0 :=
    funext fun i => by rw [kcell_succ]
  rw [h1, h2, hk, unscopedSems0_eq]
  unfold localSems
  iintro ⟨⟨Hl, Hd⟩, HB⟩
  iframe
  iexact Hl

def G₁ (c : Dev nD) : sProp 𝕄 :=
  iprop((bigSep Finset.univ fun i => iprop(∃ κ : ℕ, cellInv ER (Rd m) κ (kcell (c, i))))
    ∗ (bigSep Finset.univ fun i : Fin 17 => iprop(atPos ER (kcell (c, i)) 0 ∅ 0 ∗ reached ER (kcell (c, i)) 0)) ∗ toks c ∗ localSems c)

theorem core_alloc (c : Dev nD) : iprop(own0 (F := F) c ∗ unscopedSems0 c ∗ G m c) ⊢ |={Set.univ}=> G₁ m c := by
  unfold G G₁
  iintro ⟨Hos, Hus, Hst, Hat, Htok⟩
  ihave Hv := (sems0_eq (F := F) c) $$ [Hos Hus]
  · iframe
  icases Hv with ⟨Hv, Hloc⟩
  imod (show iprop((bigSep Finset.univ fun i : Fin 17 => semVal (kcell (c, i)) 0) ∗ bigSep Finset.univ fun i : Fin 17 => roundState ER (Rd m) (kcell (c, i)) 0)
      ⊢ (|={Set.univ}=> bigSep Finset.univ fun i => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · iframe
  imodintro
  iframe

theorem toks_around : (bigSep Finset.univ fun c : Dev nD => (toks c : sProp 𝕄)) ⊢ bigSep Finset.univ fun c : Dev nD => payToks c := by
  have ht (c : Dev nD) : (toks c : sProp 𝕄) = iprop((dutyTok ER (barCell c) 0 false
      ∗ (bigSep Finset.univ fun k : Fin 5 => dutyTok ER (ysendCell c k) 0 false) ∗ (bigSep Finset.univ fun k : Fin 5 => dutyTok ER (yrecvCell c k) 0 false)
      ∗ (bigSep Finset.univ fun k : Fin 3 => dutyTok ER (zsendCell c k) 0 false) ∗ (bigSep Finset.univ fun k : Fin 3 => dutyTok ER (zrecvCell c k) 0 false))
      ∗ dutyTok ER (barCell c) 0 true) := by
    unfold toks; rw [bigSep_cells]; simp only [kcell_B, kcell_YS, kcell_YR, kcell_ZS, kcell_ZR]
  unfold payToks
  rw [bigSep_congr (s := Finset.univ) fun c _ => ht c]
  iterate 10 rw [bigSep_sep']
  rw [bigSep_univ_equiv ypE (fun c : Dev nD => (dutyTok ER (barCell c) 0 false : sProp 𝕄)),
    bigSep_univ_equiv znE (fun c : Dev nD => (dutyTok ER (barCell c) 0 true : sProp 𝕄)),
    bigSep_univ_equiv ypE (fun c : Dev nD => (bigSep Finset.univ fun k : Fin 5 => dutyTok ER (yrecvCell c k) 0 false : sProp 𝕄)),
    bigSep_univ_equiv znE (fun c : Dev nD => (bigSep Finset.univ fun k : Fin 3 => dutyTok ER (zrecvCell c k) 0 false : sProp 𝕄))]
  iintro ⟨⟨HB, HYS, HYR, HZS, HZR⟩, HBt⟩
  iframe
  isplitl [HB]; · iexact HB
  isplitl [HBt]; · iexact HBt
  isplitl [HYR]; · iexact HYR
  iexact HZR

theorem g'_intro (K : Dev nD × Fin 17 → ℕ) (c : Dev nD) : iprop(records m K ∗ (linear c ∗ localSems c)) ⊢ G' m c := by
  unfold G'
  iintro ⟨#HR, Hl, Hs⟩
  iframe
  iexists K
  iframe # ∗

theorem regroup : bigSep Finset.univ (G₁ m) ⊢ bigSep Finset.univ (G' m) := by
  unfold G₁
  simp only [bigSep_sep']
  rw [← bigSep_univ_prod (fun ck : Dev nD × Fin 17 => iprop(∃ κ : ℕ, cellInv ER (Rd m) κ (kcell ck))),
    ← bigSep_univ_prod (fun ck : Dev nD × Fin 17 => (reached ER (kcell ck) 0 : sProp 𝕄))]
  iintro ⟨HI, ⟨Hat, #HR⟩, Htok, Hloc⟩
  ihave HK := (BI.bigSep_exists_pi Finset.univ (fun (ck : Dev nD × Fin 17) (κ : ℕ) => (cellInv ER (Rd m) κ (kcell ck) : sProp 𝕄))) $$ HI
  icases HK with ⟨%K, #HI⟩
  ihave Htk := (toks_around (F := F)) $$ Htok
  iapply (bigSep_with_persistent (R := records m K) fun c _ => g'_intro m K c)
  unfold records
  rw [bigSep_sep']; unfold linear; rw [bigSep_sep']
  iframe # ∗

theorem glob : (bigSep Finset.univ fun c => iprop(own0 (F := F) c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem cred_two (g : GSem nD τ sig) : iprop(cred (tallyAt g () 1) ∗ cred (tallyAt g () 1)) ⊢ (cred (tallyAt g () 2) : sProp 𝕄) := by
  show _ ⊢ cred (tallyAt g () (1 + 1))
  rw [← tallyAt_add g () 1 1]; exact (cred_add _ _).2

theorem creds_intro (c : Dev nD) : (Pipeline.launchCred O₀ c : sProp 𝕄) ⊢ creds c := by
  show (Pipeline.launchCred (fun d => 0 + tZ d 2 + tZ d 1 + tZ d 0 + tY d 4 + tY d 3 + tY d 2 + tY d 1 + tY d 0
      + tallyAt (barCell (zn d)) () 1 + tallyAt (barCell (yp d)) () 1) c : sProp 𝕄) ⊢ _
  iterate 10 rw [Pipeline.launchCred_add]
  rw [Pipeline.launchCred_zero]
  unfold creds
  iintro ⟨⟨⟨⟨⟨⟨⟨⟨⟨⟨-, Z2⟩, Z1⟩, Z0⟩, Y4⟩, Y3⟩, Y2⟩, Y1⟩, Y0⟩, Bz⟩, By⟩
  have hz (sm : SemLoc sig) n := Pipeline.launchCred_tallyAt (τ := τ) (Val := Elt F) (Name := ℕ) (U := UU) (Lvl := ℕ) sm zn zn zn_zn zn_zn () n c
  have hy (sm : SemLoc sig) n := Pipeline.launchCred_tallyAt (τ := τ) (Val := Elt F) (Name := ℕ) (U := UU) (Lvl := ℕ) sm yp yp yp_yp yp_yp () n c
  ihave Z2' := (hz (.dma (zrecvL 2)) N) $$ Z2
  ihave Z1' := (hz (.dma (zrecvL 1)) N) $$ Z1
  ihave Z0' := (hz (.dma (zrecvL 0)) N) $$ Z0
  ihave Y4' := (hy (.dma (yrecvL 4)) N) $$ Y4
  ihave Y3' := (hy (.dma (yrecvL 3)) N) $$ Y3
  ihave Y2' := (hy (.dma (yrecvL 2)) N) $$ Y2
  ihave Y1' := (hy (.dma (yrecvL 1)) N) $$ Y1
  ihave Y0' := (hy (.dma (yrecvL 0)) N) $$ Y0
  ihave Bz' := (hz (.reg barS) 1) $$ Bz
  ihave By' := (hy (.reg barS) 1) $$ By
  rw [bigSep_fin5, Ring.bigSep_fin3]
  ihave B := (cred_two (F := F) (barCell c)) $$ [By' Bz']
  · iframe
  iframe

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Ha, Ho⟩, Hlev, Hcr, -, HG⟩
  ihave Hc := (creds_intro (F := F) c) $$ Hcr
  unfold G'
  icases HG with ⟨HK, Hloc⟩
  imodintro
  unfold start
  iframe

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, H0, H1, H2, H3⟩
  iframe

def Yo (c : Dev nD) : sProp 𝕄 :=
  iprop(((Memref.whole main_arg0).view.loc (c : Thread nD τ) ↦{fullShare} m ((c : Thread nD τ).loc main_arg0)) ∗ outDone m c)

theorem phi1_exit (c : Dev nD) :
    (dats m 0 c).Φ (Fin.last cfg0.N) ⊢ iprop(Yo m c ∗ Pipeline.ownSems0 osem c ∗ Pipeline.scopedRest cfg0.spec c) := by
  rw [show (dats m 0 c).Φ (Fin.last cfg0.N) = Φ₁ m c from rfl, scopedRest0_eq]
  unfold Φ₁ Yo Pipeline.ownSems0 scr
  iintro ⟨Hsem, H0, H1, H2, H3, Ha, Hout⟩
  iframe

theorem waits (c : Dev nD) : (levAts L lv : sProp 𝕄) ⊢ Pipeline.cellsWaits cfgs (dats m) () 0 c :=
  Pipeline.cellsWaits_intro cfgs (dats m) () 0 c fun w s t => w.elim0

def QY (c : Dev nD) (s : MemSt nD τ sig (Elt F)) : Prop :=
  s.mem ((c : Thread nD τ).loc main_arg0) = m ((c : Thread nD τ).loc main_arg0) ∧ OutSpec m c (s.mem ((c : Thread nD τ).loc main_v1))

theorem mem_rows {off : Fin S1024x512.rank → ℕ} {inb} {row0 : ℕ} (ho : off = ![row0, 0]) (h0 : row0 + 128 ≤ 1024) (r : Fin 128) (j : Fin 512) :
    (ix2 (fin1024 (row0 + r.val)) j : S1024x512.Idx) ∈ ((View.whole main_v1).slice (Rect.unit off S128x512.size inb)).set := by
  subst ho
  rw [View.set_slice_whole, Rect.mem_set_unit]
  have hr := r.isLt
  have hj := j.isLt
  have hv := fin1024_val (row0 + r.val) (by omega)
  rintro ⟨_ | _ | a, ha⟩
  · show row0 ≤ (fin1024 (row0 + r.val)).val ∧ (fin1024 (row0 + r.val)).val < row0 + 128
    omega
  · show 0 ≤ j.val ∧ j.val < 0 + 512
    omega
  · exact absurd ha (by change ¬ a + 2 < 2; omega)

theorem mem_outSl (d : Dev nD) (k : Fin 4) : ∀ (r : Fin 128) (j : Fin 512),
    (ix2 (fin1024 (rowOf d k.val + r.val)) j : S1024x512.Idx) ∈ (outSl d k).view.set :=
  mem_rows (by rw [k0_off9_eq, rowOf, if_pos k.isLt]) (by have := rowOf_lt d k.val (by have := k.isLt; omega) 127 (by omega); omega)

theorem mem_outSlX (c : Dev nD) : ∀ (r : Fin 128) (j : Fin 512),
    (ix2 (fin1024 (rowOf c 4 + r.val)) j : S1024x512.Idx) ∈ (outSlX c).view.set :=
  mem_rows (by rw [k0_off14_eq, rowOf, if_neg (by omega)]) (by have := rowOf_lt c 4 (by omega) 127 (by omega); omega)

theorem rows_of {S : Finset S1024x512.Idx} {row0 : ℕ} {g : ℕ → ℕ → F .bf16} {f f' : S1024x512.Idx → F .bf16}
    (hmem : ∀ (r : Fin 128) (j : Fin 512), (ix2 (fin1024 (row0 + r.val)) j : S1024x512.Idx) ∈ S) (hx : ∀ i ∈ S, f' i = f i)
    (hf : RowsAre f row0 g) : RowsAre f' row0 g :=
  fun r j => (hx _ (hmem r j)).trans (hf r j)

theorem read_out (c : Dev nD) (s' : Phys nD τ sig (Elt F)) :
    iprop(Yo m c ∗ emp ∗ SI s') ⊢ |={Set.univ}=> iprop(⌜QY m c s'.mem⌝ ∗ SI s') := by
  unfold Yo outDone rowsDone rowsDoneX
  iintro ⟨⟨Ha, ⟨%f0, H0, %h0⟩, ⟨%f1, H1, %h1⟩, ⟨%f2, H2, %h2⟩, ⟨%f3, H3, %h3⟩, ⟨%f4, H4, %h4⟩, ⟨%f5, H5, %h5⟩, ⟨%f6, H6, %h6⟩, ⟨%f7, H7, %h7⟩⟩, -, HSI⟩
  icombine HSI Ha gives %ha
  icombine HSI H0 gives %e0
  icombine HSI H1 gives %e1
  icombine HSI H2 gives %e2
  icombine HSI H3 gives %e3
  icombine HSI H4 gives %e4
  icombine HSI H5 gives %e5
  icombine HSI H6 gives %e6
  icombine HSI H7 gives %e7
  imodintro
  iframe
  ipureintro
  refine ⟨Buf.eq_of_forall_mem_univ ha, ?_, ?_⟩
  · rintro ⟨_ | _ | _ | _ | _ | k, hk⟩
    · exact rows_of (mem_outSl c 0) e0 h0
    · exact rows_of (mem_outSl c 1) e1 h1
    · exact rows_of (mem_outSl c 2) e2 h2
    · exact rows_of (mem_outSl c 3) e3 h3
    · exact rows_of (mem_outSlX c) e4 h4
    · exact absurd hk (by omega)
  · rintro ⟨_ | _ | _ | k, hk⟩
    · exact rows_of (mem_outSl (zn c) 0) e5 h5
    · exact rows_of (mem_outSl (zn c) 1) e6 h6
    · exact rows_of (mem_outSl (zn c) 2) e7 h7
    · exact absurd hk (by omega)

theorem run_main (hbody : ∀ c, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0) ∧ OutSpec m c (r.2.mem ((c.tc : Thread nD τ).loc main_v1))) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX' := (own_ER (F := F) (initOf ringCells ringToks)) $$ HX
      imod (fund_ring m) $$ HX' with HG
      imodintro
      iframe)
    (hglob := glob m)
    (hA := fun _ w => w.elim0) (hpf := fun _ k => k.elim0)
    (X := start m) (Y := Yo m) (Z := fun _ => iprop(emp))
    (hX := start_intro m ρ) (hin := phi0_intro m) (hout := phi1_exit m)
    (QY := QY m)
    (hY := read_out m)
    (hQ := fun _ h c => (h c).2.2)

end Cert.KernelIdeal.RS

end
-- ==== Proof.RefSide.lean ====
import proofs.«901023_g7700000000001024_dist_rs_v7x_xyz2x2x2_y_m1024_n512_bf16_1_alg».proof.Defs
import proofs.«901023_g7700000000001024_dist_rs_v7x_xyz2x2x2_y_m1024_n512_bf16_1_alg».proof.Proof.Gen.ReferenceIdeal.Read
import proofs.«901023_g7700000000001024_dist_rs_v7x_xyz2x2x2_y_m1024_n512_bf16_1_alg».proof.Proof.Gen.Pre_finite_inputs_ReferenceIdeal
import Idealize.ShloMosaic.Lib.ValueIdx

noncomputable section

namespace Cert.RefSide

open Idealize.ShloMosaic Idealize.SL.Sem Idealize.ShloMosaic.ValueIdx

abbrev locArg : Loc Cert.ReferenceIdeal.nD Cert.ReferenceIdeal.τ Cert.ReferenceIdeal.sig :=
  ((0 : Dev Cert.ReferenceIdeal.nD).tc : Thread Cert.ReferenceIdeal.nD Cert.ReferenceIdeal.τ).loc Cert.ReferenceIdeal.main_arg0

abbrev locOut : Loc Cert.ReferenceIdeal.nD Cert.ReferenceIdeal.τ Cert.ReferenceIdeal.sig :=
  ((0 : Dev Cert.ReferenceIdeal.nD).tc : Thread Cert.ReferenceIdeal.nD Cert.ReferenceIdeal.τ).loc Cert.ReferenceIdeal.main_v1

theorem frame_ri : Cert.frame_ReferenceIdeal :=
  fun m ρ _ => (θ_run Cert.ReferenceIdeal.defs _ _).mono (fun _ h c => (h c).2)
    (Cert.ReferenceIdeal.Value.run (F := Ideal) m ρ)

def refOut (X' : Buf (Elt Ideal) locArg) : Buf (Elt Ideal) locOut :=
  Cert.ReferenceIdeal.Read.val_main_v1 (F := Ideal) X'

theorem ref_run
    (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r =>
      r.2.mem locOut
          = refOut (m' locArg)
      ∧ r.2.mem locArg
          = m' locArg) :=
  (θ_run Cert.ReferenceIdeal.defs _ _).mono (fun _ h => h 0)
    (Cert.ReferenceIdeal.Value.run (F := Ideal) m' ρ')

theorem idx_sum (R C : Fin 1024) (k : Fin 2) :
    Cert.ReferenceIdeal.Read.idx_main_v0 (ix2 R C) k = ix3 k R C := by
  funext a
  match a with
  | ⟨0, _⟩ => rfl
  | ⟨1, _⟩ => rfl
  | ⟨2, _⟩ => rfl

theorem refOut_apply (X' : Buf (Elt Ideal) locArg) (R : Fin 1024) (C : Fin 1024) :
    refOut X' (ix2 R C)
      = @HAdd.hAdd EReal EReal EReal instHAdd (X' (ix3 (0 : Fin 2) R C)) (X' (ix3 (1 : Fin 2) R C)) := by
  unfold refOut
  rw [Cert.ReferenceIdeal.Read.val_main_v1_apply, Cert.ReferenceIdeal.Read.val_main_v0_apply,
    Cert.ReferenceIdeal.Read.val_main_cst_apply]
  simp only [Ideal.truncf_def, Fin.sum_univ_two, idx_sum]
  show Ideal.ofBits .f32 0x00000000#32 + _ = _
  rw [Ideal.ofBits_zero_f32, zero_add]

theorem refOut_apply_pair (X' : Buf (Elt Ideal) locArg) (R : Fin 1024) (C : Fin 1024) (a b : Fin 2) (hab : a ≠ b) :
    refOut X' (ix2 R C)
      = @HAdd.hAdd EReal EReal EReal instHAdd (X' (ix3 a R C)) (X' (ix3 b R C)) := by
  rw [refOut_apply]
  match a, b, hab with
  | ⟨0, _⟩, ⟨0, _⟩, h => exact absurd rfl h
  | ⟨0, _⟩, ⟨1, _⟩, _ => rfl
  | ⟨1, _⟩, ⟨0, _⟩, _ => exact add_comm (G := EReal) _ _
  | ⟨1, _⟩, ⟨1, _⟩, h => exact absurd rfl h

theorem meshLin_mid (c : Dev 8) : Layout.meshLin [2, 2, 2] c.val [1] = (c.val / 2) % 2 := by
  revert c; decide

theorem mid_lt (c : Dev 8) : (c.val / 2) % 2 < 2 := Nat.mod_lt _ (by decide)

theorem col_lt (c : Dev 8) (j : Fin 512) : 512 * ((c.val / 2) % 2) + j.val < 1024 := by
  have := mid_lt c; have := j.isLt; omega

theorem blockIn_apply {α : Type} (c : Dev 8) (X' : (⟨3, ![2, 1024, 1024]⟩ : Shape).Idx → α) (R C : Fin 1024) :
    (Layout.blockN ⟨3, ![1, 1024, 1024]⟩ ⟨3, ![2, 1024, 1024]⟩ (Layout.meshBlock [2, 2, 2] ![[1], [], []] c) X')
        (ix3 (0 : Fin 1) R C)
      = X' (ix3 (⟨(c.val / 2) % 2, mid_lt c⟩ : Fin 2) R C) := by
  rw [Layout.blockN_apply]
  refine congrArg X' (funext fun a => Fin.ext ?_)
  rw [Layout.TilesN.idx_val]
  match a with
  | ⟨0, _⟩ =>
    show Layout.meshLin [2, 2, 2] c.val [1] * 1 + 0 = (c.val / 2) % 2
    rw [meshLin_mid]; omega
  | ⟨1, _⟩ =>
    show 0 * 1024 + R.val = R.val
    omega
  | ⟨2, _⟩ =>
    show 0 * 1024 + C.val = C.val
    omega

theorem blockOut_apply {α : Type} (c : Dev 8) (V : (⟨2, ![1024, 1024]⟩ : Shape).Idx → α) (R : Fin 1024) (j : Fin 512) :
    (Layout.blockN ⟨2, ![1024, 512]⟩ ⟨2, ![1024, 1024]⟩ (Layout.meshBlock [2, 2, 2] ![[], [1]] c) V)
        (ix2 R j)
      = V (ix2 R (⟨512 * ((c.val / 2) % 2) + j.val, col_lt c j⟩ : Fin 1024)) := by
  rw [Layout.blockN_apply]
  refine congrArg V (funext fun a => Fin.ext ?_)
  rw [Layout.TilesN.idx_val]
  match a with
  | ⟨0, _⟩ =>
    show 0 * 1024 + R.val = R.val
    omega
  | ⟨1, _⟩ =>
    show Layout.meshLin [2, 2, 2] c.val [1] * 512 + j.val = 512 * ((c.val / 2) % 2) + j.val
    rw [meshLin_mid]; omega

end Cert.RefSide

end
-- ==== Proof.ValueIdeal.lean ====
import proofs.«901023_g7700000000001024_dist_rs_v7x_xyz2x2x2_y_m1024_n512_bf16_1_alg».proof.Proof.Ghost
import proofs.«901023_g7700000000001024_dist_rs_v7x_xyz2x2x2_y_m1024_n512_bf16_1_alg».proof.Proof.RefSide

noncomputable section

namespace Cert.KernelIdeal.RS

open Cert.KernelIdeal Cert.KernelIdeal.Gen
open Idealize.ShloMosaic
open Idealize.ShloMosaic.TcCoe
open Idealize.SL.Sem
open Idealize.ShloMosaic.ValueIdx

theorem plane_yp_ne (d : Dev nD) : (d.val / 2) % 2 ≠ ((yp d).val / 2) % 2 := by revert d; decide
theorem plane_zn (c : Dev nD) : ((zn c).val / 2) % 2 = (c.val / 2) % 2 := by revert c; decide

theorem rows_cover (c : Dev nD) (R : ℕ) (hR : R < 1024) :
    (∃ k, k < 5 ∧ rowOf c k ≤ R ∧ R < rowOf c k + 128) ∨ (∃ k, k < 3 ∧ rowOf (zn c) k ≤ R ∧ R < rowOf (zn c) k + 128) := by
  have hzn := zn_z c
  rcases Nat.mod_two_eq_zero_or_one c.val with hz | hz
  · by_cases h1 : R < 512
    · refine Or.inl ⟨R / 128, by omega, ?_, ?_⟩ <;> (unfold rowOf; rw [if_pos (by omega), hz]; omega)
    · by_cases h2 : R < 896
      · refine Or.inr ⟨(R - 512) / 128, by omega, ?_, ?_⟩ <;> (unfold rowOf; rw [if_pos (by omega), hzn, hz]; omega)
      · refine Or.inl ⟨4, by omega, ?_, ?_⟩ <;> (unfold rowOf; rw [if_neg (by omega), hz]; omega)
  · by_cases h1 : R < 384
    · refine Or.inr ⟨R / 128, by omega, ?_, ?_⟩ <;> (unfold rowOf; rw [if_pos (by omega), hzn, hz]; omega)
    · by_cases h2 : R < 512
      · refine Or.inl ⟨4, by omega, ?_, ?_⟩ <;> (unfold rowOf; rw [if_neg (by omega), hz]; omega)
      · refine Or.inl ⟨(R - 512) / 128, by omega, ?_, ?_⟩ <;> (unfold rowOf; rw [if_pos (by omega), hz]; omega)

section Value

variable (m : (ℓ : Loc nD τ sig) → Buf (Elt Ideal) ℓ) (X' : Buf (Elt Ideal) Cert.RefSide.locArg)
  (hagree : ∀ c : Dev nD, m ((c.tc : Thread nD τ).loc main_arg0)
    = Layout.blockN ⟨3, ![1, 1024, 1024]⟩ ⟨3, ![2, 1024, 1024]⟩ (Layout.meshBlock [2, 2, 2] ![[1], [], []] c) X')

include hagree in
theorem xAt_X (d : Dev nD) (R C : ℕ) :
    xAt (X m d) R C = X' (ix3 (⟨(d.val / 2) % 2, Cert.RefSide.mid_lt d⟩ : Fin 2) (fin1024 R) (fin1024 C)) :=
  (congrFun (hagree d) (ix3 (0 : Fin 1) (fin1024 R) (fin1024 C))).trans
    (Cert.RefSide.blockIn_apply d X' (fin1024 R) (fin1024 C))

include hagree in
theorem sumOf_eq (d : Dev nD) (k r : ℕ) (j : Fin 512) :
    sumOf (F := Ideal) m d k r j.val
      = Cert.RefSide.refOut X' (ix2 (fin1024 (rowOf d k + r))
          (⟨512 * ((d.val / 2) % 2) + j.val, Cert.RefSide.col_lt d j⟩ : Fin 1024)) := by
  have hC : fin1024 (mcol d + j.val) = (⟨512 * ((d.val / 2) % 2) + j.val, Cert.RefSide.col_lt d j⟩ : Fin 1024) :=
    Fin.ext (by show (mcol d + j.val) % 1024 = 512 * ((d.val / 2) % 2) + j.val; unfold mcol; have := j.isLt; omega)
  show @HAdd.hAdd EReal EReal EReal instHAdd (xAt (X m d) (rowOf d k + r) (mcol d + j.val))
    (xAt (X m (yp d)) (rowOf (yp d) k + r) (pcol (yp d) + j.val)) = _
  rw [rowOf_yp, pcol_yp, xAt_X m X' hagree, xAt_X m X' hagree, hC]
  exact (Cert.RefSide.refOut_apply_pair X' _ _ _ _ (fun h => plane_yp_ne d (congrArg Fin.val h))).symm

include hagree in
theorem entry (c : Dev nD) (f : S1024x512.Idx → Ideal .bf16) (d : Dev nD) (hd : (d.val / 2) % 2 = (c.val / 2) % 2) (k : ℕ) (hk : k < 5)
    (hrows : RowsAre f (rowOf d k) (sumOf (F := Ideal) m d k)) (R : Fin 1024) (j : Fin 512)
    (hR : rowOf d k ≤ R.val ∧ R.val < rowOf d k + 128) :
    f (ix2 R j) = (Layout.blockN ⟨2, ![1024, 512]⟩ ⟨2, ![1024, 1024]⟩ (Layout.meshBlock [2, 2, 2] ![[], [1]] c)
      (Cert.RefSide.refOut X')) (ix2 R j) := by
  have hRe : fin1024 (rowOf d k + (R.val - rowOf d k)) = R :=
    Fin.ext (by show (rowOf d k + (R.val - rowOf d k)) % 1024 = R.val; have := R.isLt; omega)
  have hC : (⟨512 * ((d.val / 2) % 2) + j.val, Cert.RefSide.col_lt d j⟩ : Fin 1024)
      = ⟨512 * ((c.val / 2) % 2) + j.val, Cert.RefSide.col_lt c j⟩ := Fin.ext (by show 512 * ((d.val / 2) % 2) + j.val = 512 * ((c.val / 2) % 2) + j.val; rw [hd])
  have h1 := hrows ⟨R.val - rowOf d k, by omega⟩ j
  rw [sumOf_eq m X' hagree] at h1
  rw [hRe, hC] at h1
  rw [h1]
  exact (Cert.RefSide.blockOut_apply c (Cert.RefSide.refOut X') R j).symm

include hagree in
theorem out_value (c : Dev nD) (f : S1024x512.Idx → Ideal .bf16) (h : OutSpec (F := Ideal) m c f) :
    f = Layout.blockN ⟨2, ![1024, 512]⟩ ⟨2, ![1024, 1024]⟩ (Layout.meshBlock [2, 2, 2] ![[], [1]] c) (Cert.RefSide.refOut X') := by
  funext i
  obtain ⟨R, j, rfl⟩ : ∃ (R : Fin 1024) (j : Fin 512), i = ix2 R j := ⟨i 0, i 1, eq_ix2 i⟩
  rcases rows_cover c R.val R.isLt with ⟨k, hk, h1, h2⟩ | ⟨k, hk, h1, h2⟩
  · exact entry m X' hagree c f c rfl k hk (h.1 ⟨k, hk⟩) R j ⟨h1, h2⟩
  · exact entry m X' hagree c f (zn c) (plane_zn c) k (by omega) (h.2 ⟨k, hk⟩) R j ⟨h1, h2⟩

end Value

end Cert.KernelIdeal.RS

end
-- ==== Proof.lean ====
import proofs.«901023_g7700000000001024_dist_rs_v7x_xyz2x2x2_y_m1024_n512_bf16_1_alg».proof.Proof.Gen.Kernel
import proofs.«901023_g7700000000001024_dist_rs_v7x_xyz2x2x2_y_m1024_n512_bf16_1_alg».proof.Proof.Gen.Pre_finite_inputs_Kernel
import proofs.«901023_g7700000000001024_dist_rs_v7x_xyz2x2x2_y_m1024_n512_bf16_1_alg».proof.Proof.Body
import proofs.«901023_g7700000000001024_dist_rs_v7x_xyz2x2x2_y_m1024_n512_bf16_1_alg».proof.Proof.Launch
import proofs.«901023_g7700000000001024_dist_rs_v7x_xyz2x2x2_y_m1024_n512_bf16_1_alg».proof.Proof.ValueIdeal

noncomputable section

namespace Cert.Proof

open Idealize.ShloMosaic Idealize.SL.Sem

-- The word-level program is the idealized program's text, so its run is the run for any floats, read at the machine's.
theorem frame_kernel :
    Cert.frame_Kernel (hKernel := Cert.Kernel.Gen.facts) (hPre_finite_inputs_Kernel := Cert.Pre_finite_inputs_Kernel.Gen.facts) :=
  fun m g _ => (θ_run _ _ _).mono (fun _ h c => (h c).1) (Cert.KernelIdeal.RS.run_main (F := Bits) m g (Cert.KernelIdeal.RS.body m))

theorem frame_kernelIdeal :
    Cert.frame_KernelIdeal (hKernelIdeal := Cert.KernelIdeal.Gen.facts) (hPre_finite_inputs_Kernel := Cert.Pre_finite_inputs_Kernel.Gen.facts) :=
  fun m g _ => (θ_run _ _ _).mono (fun _ h c => (h c).1) (Cert.KernelIdeal.RS.run_main m g (Cert.KernelIdeal.RS.body m))

-- Each row block the run fills holds the sum of the two planes, which is the reference's value at the device's columns.
theorem algebraic :
    Cert.algebraic_KernelIdeal_ReferenceIdeal (hKernelIdeal := Cert.KernelIdeal.Gen.facts) (hReferenceIdeal := Cert.ReferenceIdeal.Gen.facts)
      (hPre_finite_inputs_Kernel := Cert.Pre_finite_inputs_Kernel.Gen.facts) :=
  fun m g m' g' _ hagree =>
    ⟨Cert.RefSide.refOut (m' _),
      (θ_run _ _ _).mono (fun _ h c => ⟨Cert.KernelIdeal.RS.out_value m _ hagree c _ (h c).2, (h c).1⟩)
        (Cert.KernelIdeal.RS.run_main (F := Ideal) m g (Cert.KernelIdeal.RS.body m)),
      Cert.RefSide.ref_run m' g'⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_kernel, frame_kernelIdeal, Cert.RefSide.frame_ri, trivial, algebraic⟩

end Cert.Proof

end
